-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x50 : Shape := ⟨2, ![128, 50]⟩
abbrev S50 : Shape := ⟨1, ![50]⟩
abbrev S50x50 : Shape := ⟨2, ![50, 50]⟩
abbrev S50x100 : Shape := ⟨2, ![50, 100]⟩
abbrev S100 : Shape := ⟨1, ![100]⟩
abbrev S100x50 : Shape := ⟨2, ![100, 50]⟩
abbrev S50x2 : Shape := ⟨2, ![50, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S50x100 : S_.BroadcastsInDim S50x100 (![] : Fin 0 → Fin S50x100.rank)
  reducesTo_S50x100_S_d0_1 : S50x100.ReducesTo [0, 1] S_
  bcast_S_S100 : S_.BroadcastsInDim S100 (![] : Fin 0 → Fin S100.rank)
  reducesTo_S100_S_d0 : S100.ReducesTo [0] S_
  bcast_S_S100x50 : S_.BroadcastsInDim S100x50 (![] : Fin 0 → Fin S100x50.rank)
  reducesTo_S100x50_S_d0_1 : S100x50.ReducesTo [0, 1] S_
  bcast_S_S50x2 : S_.BroadcastsInDim S50x2 (![] : Fin 0 → Fin S50x2.rank)
  reducesTo_S50x2_S_d0_1 : S50x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S50x2 .f32) (main_arg14 : FVec F S2 .f32) (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  let main_v54 : FVec F S50x2 .f32 := Host.absf main_arg13
  let main_cst_20 : FVec F S_ .f32 := constant S_ .f32 0x7F800000#32
  let main_v55 : FVec F S50x2 .f32 := broadcastInDim S50x2 ![] bcast_S_S50x2 main_cst_20
  let main_v56 : IVec S50x2 1 := cmpf .olt main_v54 main_v55
  let main_c_21 : IVec S_ 1 := constantI S_ 1 1#1
  let main_v57 : IVec S_ 1 := (fun x v => Host.reduce IntOp.andi x v reducesTo_S50x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S50x100 .f32) (main_arg10 : FVec F S100 .f32) (main_arg11 : FVec F S100x50 .f32) (main_arg12 : FVec F S50 .f32) (main_arg13 : FVec F S50x2 .f32) (main_arg14 : FVec F S2 .f32) (main_v33 : IVec S_ 1) : IVec S_ 1 :=
  let main_v34 : FVec F S50x100 .f32 := Host.absf main_arg9
  let main_cst_12 : FVec F S_ .f32 := constant S_ .f32 0x7F800000#32
  let main_v35 : FVec F S50x100 .f32 := broadcastInDim S50x100 ![] bcast_S_S50x100 main_cst_12
  let main_v36 : IVec S50x100 1 := cmpf .olt main_v34 main_v35
  let main_c_13 : IVec S_ 1 := constantI S_ 1 1#1
  let main_v37 : IVec S_ 1 := (fun x v => Host.reduce IntOp.andi x v reducesTo_S50x100_S_d0_1 h_S_) main_v36 main_c_13
  let main_v38 : IVec S_ 1 := andi main_v33 main_v37
  let main_v39 : FVec F S100 .f32 := Host.absf main_arg10
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100x50 .f32 := Host.absf main_arg11
  let main_cst_16 : FVec F S_ .f32 := constant S_ .f32 0x7F800000#32
  let main_v45 : FVec F S100x50 .f32 := broadcastInDim S100x50 ![] bcast_S_S100x50 main_cst_16
  let main_v46 : IVec S100x50 1 := cmpf .olt main_v44 main_v45
  let main_c_17 : IVec S_ 1 := constantI S_ 1 1#1
  let main_v47 : IVec S_ 1 := (fun x v => Host.reduce IntOp.andi x v reducesTo_S100x50_S_d0_1 h_S_) main_v46 main_c_17
  let main_v48 : IVec S_ 1 := andi main_v43 main_v47
  let main_v49 : FVec F S50 .f32 := Host.absf main_arg12
  let main_cst_18 : FVec F S_ .f32 := constant S_ .f32 0x7F800000#32
  let main_v50 : FVec F S50 .f32 := broadcastInDim S50 ![] bcast_S_S50 main_cst_18
  fn_part3 (F := F) main_arg13 main_arg14 main_v48 main_v49 main_v50

def fn_part1 {F : FTy → Type} [FloatOps F] (main_arg6 : FVec F S50 .f32) (main_arg7 : FVec F S50x50 .f32) (main_arg8 : FVec F S50 .f32) (main_arg9 : FVec F S50x100 .f32) (main_arg10 : FVec F S100 .f32) (main_arg11 : FVec F S100x50 .f32) (main_arg12 : FVec F S50 .f32) (main_arg13 : FVec F S50x2 .f32) (main_arg14 : FVec F S2 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50 .f32 := Host.absf main_arg6
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x50 .f32 := Host.absf main_arg7
  let main_cst_8 : FVec F S_ .f32 := constant S_ .f32 0x7F800000#32
  let main_v25 : FVec F S50x50 .f32 := broadcastInDim S50x50 ![] bcast_S_S50x50 main_cst_8
  let main_v26 : IVec S50x50 1 := cmpf .olt main_v24 main_v25
  let main_c_9 : IVec S_ 1 := constantI S_ 1 1#1
  let main_v27 : IVec S_ 1 := (fun x v => Host.reduce IntOp.andi x v reducesTo_S50x50_S_d0_1 h_S_) main_v26 main_c_9
  let main_v28 : IVec S_ 1 := andi main_v23 main_v27
  let main_v29 : FVec F S50 .f32 := Host.absf main_arg8
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x50 .f32) (main_arg4 : FVec F S50 .f32) (main_arg5 : FVec F S50x50 .f32) (main_arg6 : FVec F S50 .f32) (main_arg7 : FVec F S50x50 .f32) (main_arg8 : FVec F S50 .f32) (main_arg9 : FVec F S50x100 .f32) (main_arg10 : FVec F S100 .f32) (main_arg11 : FVec F S100x50 .f32) (main_arg12 : FVec F S50 .f32) (main_arg13 : FVec F S50x2 .f32) (main_arg14 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x50 .f32 := Host.absf main_arg3
  let main_cst_0 : FVec F S_ .f32 := constant S_ .f32 0x7F800000#32
  let main_v5 : FVec F S128x50 .f32 := broadcastInDim S128x50 ![] bcast_S_S128x50 main_cst_0
  let main_v6 : IVec S128x50 1 := cmpf .olt main_v4 main_v5
  let main_c_1 : IVec S_ 1 := constantI S_ 1 1#1
  let main_v7 : IVec S_ 1 := (fun x v => Host.reduce IntOp.andi x v reducesTo_S128x50_S_d0_1 h_S_) main_v6 main_c_1
  let main_v8 : IVec S_ 1 := andi main_v3 main_v7
  let main_v9 : FVec F S50 .f32 := Host.absf main_arg4
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x50 .f32 := Host.absf main_arg5
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x50 : Shape := ⟨2, ![128, 50]⟩
abbrev S50 : Shape := ⟨1, ![50]⟩
abbrev S50x50 : Shape := ⟨2, ![50, 50]⟩
abbrev S50x100 : Shape := ⟨2, ![50, 100]⟩
abbrev S100 : Shape := ⟨1, ![100]⟩
abbrev S100x50 : Shape := ⟨2, ![100, 50]⟩
abbrev S50x2 : Shape := ⟨2, ![50, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x50 : Shape := ⟨2, ![100000, 50]⟩
abbrev S10000x128 : Shape := ⟨2, ![10000, 128]⟩
abbrev S10000x50 : Shape := ⟨2, ![10000, 50]⟩
abbrev S100000x1 : Shape := ⟨2, ![100000, 1]⟩
abbrev S1700000x50 : Shape := ⟨2, ![1700000, 50]⟩
abbrev S1x50 : Shape := ⟨2, ![1, 50]⟩
abbrev S1x100 : Shape := ⟨2, ![1, 100]⟩
abbrev S1x2 : Shape := ⟨2, ![1, 2]⟩
abbrev S64x2 : Shape := ⟨2, ![64, 2]⟩
abbrev S5000x50 : Shape := ⟨2, ![5000, 50]⟩
abbrev S5000x1 : Shape := ⟨2, ![5000, 1]⟩
abbrev S64x100 : Shape := ⟨2, ![64, 100]⟩
abbrev S64x1 : Shape := ⟨2, ![64, 1]⟩
abbrev S5000x100 : Shape := ⟨2, ![5000, 100]⟩
abbrev S5000x64 : Shape := ⟨2, ![5000, 64]⟩
abbrev S64x50 : Shape := ⟨2, ![64, 50]⟩

abbrev nBuf : Space → Nat
  | .hbm => 139
  | .vmem => 30
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x50, .f32⟩
  | 4 => ⟨S50, .f32⟩
  | 5 => ⟨S50x50, .f32⟩
  | 6 => ⟨S50, .f32⟩
  | 7 => ⟨S50x50, .f32⟩
  | 8 => ⟨S50, .f32⟩
  | 9 => ⟨S50x100, .f32⟩
  | 10 => ⟨S100, .f32⟩
  | 11 => ⟨S100x50, .f32⟩
  | 12 => ⟨S50, .f32⟩
  | 13 => ⟨S50x2, .f32⟩
  | 14 => ⟨S2, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S100000x50, .bf16⟩
  | 37 => ⟨S100000x50, .f32⟩
  | 38 => ⟨S100000x1, .f32⟩
  | 39 => ⟨S100000x50, .f32⟩
  | 40 => ⟨S100000x50, .f32⟩
  | 41 => ⟨S100000x50, .bf16⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x50, .bf16⟩
  | 51 => ⟨S1700000x50, .f32⟩
  | 52 => ⟨S_, .f32⟩
  | 53 => ⟨S100000x50, .f32⟩
  | 54 => ⟨S1700000x1, .i32⟩
  | 55 => ⟨S100000x50, .f32⟩
  | 56 => ⟨S100000x1, .f32⟩
  | 57 => ⟨S100000x50, .f32⟩
  | 58 => ⟨S100000x50, .f32⟩
  | 59 => ⟨S1x50, .f32⟩
  | 60 => ⟨S100000x50, .bf16⟩
  | 61 => ⟨S100000x50, .f32⟩
  | 62 => ⟨S100000x1, .f32⟩
  | 63 => ⟨S100000x50, .f32⟩
  | 64 => ⟨S100000x50, .f32⟩
  | 65 => ⟨S100000x50, .bf16⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x50, .bf16⟩
  | 75 => ⟨S1700000x50, .f32⟩
  | 76 => ⟨S_, .f32⟩
  | 77 => ⟨S100000x50, .f32⟩
  | 78 => ⟨S1700000x1, .i32⟩
  | 79 => ⟨S100000x50, .f32⟩
  | 80 => ⟨S100000x1, .f32⟩
  | 81 => ⟨S100000x50, .f32⟩
  | 82 => ⟨S100000x50, .f32⟩
  | 83 => ⟨S1x50, .f32⟩
  | 84 => ⟨S100000x50, .bf16⟩
  | 85 => ⟨S100000x50, .f32⟩
  | 86 => ⟨S100000x1, .f32⟩
  | 87 => ⟨S100000x50, .f32⟩
  | 88 => ⟨S100000x50, .f32⟩
  | 89 => ⟨S100000x50, .bf16⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x50, .bf16⟩
  | 99 => ⟨S1700000x50, .f32⟩
  | 100 => ⟨S_, .f32⟩
  | 101 => ⟨S100000x50, .f32⟩
  | 102 => ⟨S1700000x1, .i32⟩
  | 103 => ⟨S100000x50, .f32⟩
  | 104 => ⟨S100000x1, .f32⟩
  | 105 => ⟨S100000x50, .f32⟩
  | 106 => ⟨S100000x50, .f32⟩
  | 107 => ⟨S1x50, .f32⟩
  | 108 => ⟨S100000x50, .f32⟩
  | 109 => ⟨S100000x50, .f32⟩
  | 110 => ⟨S_, .f32⟩
  | 111 => ⟨S100000x50, .f32⟩
  | 112 => ⟨S100000x50, .f32⟩
  | 113 => ⟨S100000x1, .f32⟩
  | 114 => ⟨S100000x50, .f32⟩
  | 115 => ⟨S100000x50, .f32⟩
  | 116 => ⟨S100000x50, .bf16⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x50, .bf16⟩
  | 126 => ⟨S1700000x50, .f32⟩
  | 127 => ⟨S_, .f32⟩
  | _ => ⟨S100000x128, .f32⟩

abbrev hbmTy0_1 (i : Nat) : BufTy := match i % 128 with
  | 0 => ⟨S100000x50, .f32⟩
  | 1 => ⟨S1700000x1, .i32⟩
  | 2 => ⟨S100000x50, .f32⟩
  | 3 => ⟨S100000x1, .f32⟩
  | 4 => ⟨S100000x50, .f32⟩
  | 5 => ⟨S100000x50, .f32⟩
  | 6 => ⟨S1x100, .f32⟩
  | 7 => ⟨S1x50, .f32⟩
  | 8 => ⟨S1x2, .f32⟩
  | 9 => ⟨S100000x1, .i32⟩
  | 10 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x50, .f32⟩
  | .local _ .vmem, ⟨3, _⟩ => ⟨S10000x50, .bf16⟩
  | .local _ .vmem, ⟨4, _⟩ => ⟨S10000x50, .bf16⟩
  | .local _ .vmem, ⟨5, _⟩ => ⟨S10000x50, .f32⟩
  | .local _ .vmem, ⟨6, _⟩ => ⟨S10000x50, .f32⟩
  | .local _ .vmem, ⟨7, _⟩ => ⟨S1x50, .f32⟩
  | .local _ .vmem, ⟨8, _⟩ => ⟨S50x50, .f32⟩
  | .local _ .vmem, ⟨9, _⟩ => ⟨S10000x50, .bf16⟩
  | .local _ .vmem, ⟨10, _⟩ => ⟨S10000x50, .bf16⟩
  | .local _ .vmem, ⟨11, _⟩ => ⟨S10000x50, .f32⟩
  | .local _ .vmem, ⟨12, _⟩ => ⟨S10000x50, .f32⟩
  | .local _ .vmem, ⟨13, _⟩ => ⟨S1x50, .f32⟩
  | .local _ .vmem, ⟨14, _⟩ => ⟨S50x50, .f32⟩
  | .local _ .vmem, ⟨15, _⟩ => ⟨S10000x50, .bf16⟩
  | .local _ .vmem, ⟨16, _⟩ => ⟨S10000x50, .bf16⟩
  | .local _ .vmem, ⟨17, _⟩ => ⟨S5000x50, .f32⟩
  | .local _ .vmem, ⟨18, _⟩ => ⟨S5000x50, .f32⟩
  | .local _ .vmem, ⟨19, _⟩ => ⟨S5000x1, .i32⟩
  | .local _ .vmem, ⟨20, _⟩ => ⟨S5000x1, .i32⟩
  | .local _ .vmem, ⟨21, _⟩ => ⟨S50x100, .f32⟩
  | .local _ .vmem, ⟨22, _⟩ => ⟨S1x100, .f32⟩
  | .local _ .vmem, ⟨23, _⟩ => ⟨S100x50, .f32⟩
  | .local _ .vmem, ⟨24, _⟩ => ⟨S1x50, .f32⟩
  | .local _ .vmem, ⟨25, _⟩ => ⟨S50x2, .f32⟩
  | .local _ .vmem, ⟨26, _⟩ => ⟨S1x2, .f32⟩
  | .local _ .vmem, ⟨27, _⟩ => ⟨S64x2, .f32⟩
  | .local _ .vmem, ⟨28, _⟩ => ⟨S64x100, .f32⟩
  | .local _ .vmem, ⟨29, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_8 : Ref sig .tc := ⟨.hbm, 90, rfl⟩
abbrev main_v63 : Ref sig .tc := ⟨.hbm, 91, rfl⟩
abbrev main_v64 : Ref sig .tc := ⟨.hbm, 92, rfl⟩
abbrev main_c_9 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call1_cst : Ref sig .tc := ⟨.hbm, 110, rfl⟩
abbrev main_call1_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_11 : Ref sig .tc := ⟨.hbm, 117, rfl⟩
abbrev main_v85 : Ref sig .tc := ⟨.hbm, 118, rfl⟩
abbrev main_v86 : Ref sig .tc := ⟨.hbm, 119, rfl⟩
abbrev main_c_12 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_13 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg8_0 : Ref sig .tc := ⟨.vmem, 27, rfl⟩
abbrev cc3_scratch0 : Ref sig .tc := ⟨.vmem, 28, rfl⟩
abbrev cc3_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem8_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x50 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x50 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S50x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x50 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x50 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S50x50 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x50 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_20 : BitVec 32 := 0#32
  let v37 : BitVec 1 := Scalar.cmpi .ne v36 c0_i32_20
  v37

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x50 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S50x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S100x50 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x50 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S50x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x50_S128x50_0_0 : ∀ a, (![0, 0] : Fin 2 → Nat) a + S128x50.size a ≤ S128x50.size a
  h_S128x50 : 0 < S128x50.numel
  inb_S10000x50_S10000x50_0_0 : ∀ a, (![0, 0] : Fin 2 → Nat) a + S10000x50.size a ≤ S10000x50.size a
  h_S10000x50 : 0 < S10000x50.numel
  packedbf16_S10000x50_S10000x50_0_0 : (Rect.unit (s := S10000x50) ![0, 0] S10000x50.size inb_S10000x50_S10000x50_0_0).PackedRows (EltTy.packing .bf16)
  bcast_S100000_S100000x1_0 : S100000.BroadcastsInDim S100000x1 (![0] : Fin 1 → Fin S100000x1.rank)
  bcast_S100000x1_S100000x50_0_1 : S100000x1.BroadcastsInDim S100000x50 (![0, 1] : Fin 2 → Fin S100000x50.rank)
  bcast_S_S100000x50 : S_.BroadcastsInDim S100000x50 (![] : Fin 0 → Fin S100000x50.rank)
  shapeCasts_S50_S1x50 : S50.ShapeCasts S1x50
  shapeCasts_S10000x50_S10000x50 : S10000x50.ShapeCasts S10000x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S10000x50 : S1x50.Broadcasts S10000x50
  inb_S50x50_S50x50_0_0 : ∀ a, (![0, 0] : Fin 2 → Nat) a + S50x50.size a ≤ S50x50.size a
  h_S50x50 : 0 < S50x50.numel
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  shapeCasts_S100_S1x100 : S100.ShapeCasts S1x100
  shapeCasts_S2_S1x2 : S2.ShapeCasts S1x2
  shapeCasts_S100000_S100000x1 : S100000.ShapeCasts S100000x1
  inb_S64x100_S64x100_0_0 : ∀ a, (![0, 0] : Fin 2 → Nat) a + S64x100.size a ≤ S64x100.size a
  h_S64x100 : 0 < S64x100.numel
  shapeCasts_S64x100_S64x100 : S64x100.ShapeCasts S64x100
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5000x50_S5000x50_0_0 : ∀ a, (![0, 0] : Fin 2 → Nat) a + S5000x50.size a ≤ S5000x50.size a
  h_S5000x50 : 0 < S5000x50.numel
  shapeCasts_S5000x50_S5000x50 : S5000x50.ShapeCasts S5000x50
  inb_S50x100_S50x100_0_0 : ∀ a, (![0, 0] : Fin 2 → Nat) a + S50x100.size a ≤ S50x100.size a
  h_S50x100 : 0 < S50x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  broadcasts_S64x1_S64x100 : S64x1.Broadcasts S64x100
  inb_S100x50_S100x50_0_0 : ∀ a, (![0, 0] : Fin 2 → Nat) a + S100x50.size a ≤ S100x50.size a
  h_S100x50 : 0 < S100x50.numel
  broadcasts_S1x50_S64x50 : S1x50.Broadcasts S64x50
  inb_S50x2_S50x2_0_0 : ∀ a, (![0, 0] : Fin 2 → Nat) a + S50x2.size a ≤ S50x2.size a
  h_S50x2 : 0 < S50x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S100000_S1700000x1_S1700000_n_0_0_1_wf : ScatterDims.WF S100000 S1700000x1 S1700000 [] [0] [0] 1
  dot_S10000x128_S128x50_S10000x50_1_0_0_1_n_n_wf : DotDims.WF S10000x128 S128x50 S10000x50 [1] [0] [0] [1] [] []
  gather_S100000x50_S1700000x1_S1700000x50_1_0_n_n_0_1_150_wf : GatherDims.WF S100000x50 S1700000x1 S1700000x50 [1] [0] [] [0] [] 1 ![1, 50]
  scatter_S100000x50_S1700000x1_S1700000x50_1_0_0_1_wf : ScatterDims.WF S100000x50 S1700000x1 S1700000x50 [1] [0] [0] 1
  dot_S10000x50_S50x50_S10000x50_1_0_0_1_n_n_wf : DotDims.WF S10000x50 S50x50 S10000x50 [1] [0] [0] [1] [] []
  dot_S5000x50_S50x100_S5000x100_1_0_0_1_n_n_wf : DotDims.WF S5000x50 S50x100 S5000x100 [1] [0] [0] [1] [] []
  dot_S5000x64_S5000x100_S64x100_0_0_1_1_n_n_wf : DotDims.WF S5000x64 S5000x100 S64x100 [0] [0] [1] [1] [] []
  dot_S5000x64_S5000x1_S64x1_0_0_1_1_n_n_wf : DotDims.WF S5000x64 S5000x1 S64x1 [0] [0] [1] [1] [] []
  dot_S64x100_S100x50_S64x50_1_0_0_1_n_n_wf : DotDims.WF S64x100 S100x50 S64x50 [1] [0] [0] [1] [] []
  dot_S64x50_S50x2_S64x2_1_0_0_1_n_n_wf : DotDims.WF S64x50 S50x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S128x50.size a
  hwx0_1 : ∀ i : grid0.Coords, EltTy.bits .f32 = 32 ∨ (Rect.block (s := S128x50) S128x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x50.size a ≤ S100000x50.size a
  hwx0_2 : ∀ i : grid0.Coords, EltTy.bits .bf16 = 32 ∨ (Rect.block (s := S100000x50) S10000x50.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x50.size a ≤ S100000x50.size a
  hwx1_0 : ∀ i : grid1.Coords, EltTy.bits .f32 = 32 ∨ (Rect.block (s := S100000x50) S10000x50.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x50.size a ≤ S1x50.size a
  hwx1_1 : ∀ i : grid1.Coords, EltTy.bits .f32 = 32 ∨ (Rect.block (s := S1x50) S1x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x50.size a ≤ S50x50.size a
  hwx1_2 : ∀ i : grid1.Coords, EltTy.bits .f32 = 32 ∨ (Rect.block (s := S50x50) S50x50.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x50.size a ≤ S100000x50.size a
  hwx1_3 : ∀ i : grid1.Coords, EltTy.bits .bf16 = 32 ∨ (Rect.block (s := S100000x50) S10000x50.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x50.size a ≤ S100000x50.size a
  hwx2_0 : ∀ i : grid2.Coords, EltTy.bits .f32 = 32 ∨ (Rect.block (s := S100000x50) S10000x50.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x50.size a ≤ S1x50.size a
  hwx2_1 : ∀ i : grid2.Coords, EltTy.bits .f32 = 32 ∨ (Rect.block (s := S1x50) S1x50.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50x50.size a ≤ S50x50.size a
  hwx2_2 : ∀ i : grid2.Coords, EltTy.bits .f32 = 32 ∨ (Rect.block (s := S50x50) S50x50.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x50.size a ≤ S100000x50.size a
  hwx2_3 : ∀ i : grid2.Coords, EltTy.bits .bf16 = 32 ∨ (Rect.block (s := S100000x50) S10000x50.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x50.size a ≤ S100000x50.size a
  hwx3_0 : ∀ i : grid3.Coords, EltTy.bits .f32 = 32 ∨ (Rect.block (s := S100000x50) S5000x50.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S50x100.size a ≤ S50x100.size a
  hwx3_2 : ∀ i : grid3.Coords, EltTy.bits .f32 = 32 ∨ (Rect.block (s := S50x100) S50x100.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x100.size a ≤ S1x100.size a
  hwx3_3 : ∀ i : grid3.Coords, EltTy.bits .f32 = 32 ∨ (Rect.block (s := S1x100) S1x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S100x50.size a ≤ S100x50.size a
  hwx3_4 : ∀ i : grid3.Coords, EltTy.bits .f32 = 32 ∨ (Rect.block (s := S100x50) S100x50.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x50.size a ≤ S1x50.size a
  hwx3_5 : ∀ i : grid3.Coords, EltTy.bits .f32 = 32 ∨ (Rect.block (s := S1x50) S1x50.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S50x2.size a ≤ S50x2.size a
  hwx3_6 : ∀ i : grid3.Coords, EltTy.bits .f32 = 32 ∨ (Rect.block (s := S50x2) S50x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x2.size a ≤ S1x2.size a
  hwx3_7 : ∀ i : grid3.Coords, EltTy.bits .f32 = 32 ∨ (Rect.block (s := S1x2) S1x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x2.size a ≤ S64x2.size a
  hwx3_8 : ∀ i : grid3.Coords, EltTy.bits .f32 = 32 ∨ (Rect.block (s := S64x2) S64x2.size (cc3_transform_8 i) (hinb3_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x50_S10000x50_1_0_0_1_n_n : DotDims S10000x128 S128x50 S10000x50 where
  lhsContracting := [1]
  rhsContracting := [0]
  lhsNonContracting := [0]
  rhsNonContracting := [1]
  lhsBatch := []
  rhsBatch := []
  wf := dot_S10000x128_S128x50_S10000x50_1_0_0_1_n_n_wf
def gather_S100000x50_S1700000x1_S1700000x50_1_0_n_n_0_1_150 : GatherDims S100000x50 S1700000x1 S1700000x50 where
  offsetDims := [1]
  collapsedSliceDims := [0]
  operandBatchingDims := []
  startIndicesBatchingDims := []
  startIndexMap := [0]
  indexVectorDim := 1
  sliceSizes := ![1, 50]
  wf := gather_S100000x50_S1700000x1_S1700000x50_1_0_n_n_0_1_150_wf
def scatter_S100000x50_S1700000x1_S1700000x50_1_0_0_1 : ScatterDims S100000x50 S1700000x1 S1700000x50 where
  updateWindowDims := [1]
  insertedWindowDims := [0]
  scatterDimsToOperandDims := [0]
  indexVectorDim := 1
  wf := scatter_S100000x50_S1700000x1_S1700000x50_1_0_0_1_wf
def dot_S10000x50_S50x50_S10000x50_1_0_0_1_n_n : DotDims S10000x50 S50x50 S10000x50 where
  lhsContracting := [1]
  rhsContracting := [0]
  lhsNonContracting := [0]
  rhsNonContracting := [1]
  lhsBatch := []
  rhsBatch := []
  wf := dot_S10000x50_S50x50_S10000x50_1_0_0_1_n_n_wf
def dot_S5000x50_S50x100_S5000x100_1_0_0_1_n_n : DotDims S5000x50 S50x100 S5000x100 where
  lhsContracting := [1]
  rhsContracting := [0]
  lhsNonContracting := [0]
  rhsNonContracting := [1]
  lhsBatch := []
  rhsBatch := []
  wf := dot_S5000x50_S50x100_S5000x100_1_0_0_1_n_n_wf
def dot_S5000x64_S5000x100_S64x100_0_0_1_1_n_n : DotDims S5000x64 S5000x100 S64x100 where
  lhsContracting := [0]
  rhsContracting := [0]
  lhsNonContracting := [1]
  rhsNonContracting := [1]
  lhsBatch := []
  rhsBatch := []
  wf := dot_S5000x64_S5000x100_S64x100_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x100_S100x50_S64x50_1_0_0_1_n_n : DotDims S64x100 S100x50 S64x50 where
  lhsContracting := [1]
  rhsContracting := [0]
  lhsNonContracting := [0]
  rhsNonContracting := [1]
  lhsBatch := []
  rhsBatch := []
  wf := dot_S64x100_S100x50_S64x50_1_0_0_1_n_n_wf
def dot_S64x50_S50x2_S64x2_1_0_0_1_n_n : DotDims S64x50 S50x2 S64x2 where
  lhsContracting := [1]
  rhsContracting := [0]
  lhsNonContracting := [0]
  rhsNonContracting := [1]
  lhsBatch := []
  rhsBatch := []
  wf := dot_S64x50_S50x2_S64x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S50x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S10000x50.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x50.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S50x50.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S10000x50.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v98) S5000x50.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v102) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S50x100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S1x100.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S100x50.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v100) S1x50.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S50x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v101) S1x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v103) S64x2.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x50 : Shape := ⟨2, ![128, 50]⟩
abbrev S50 : Shape := ⟨1, ![50]⟩
abbrev S50x50 : Shape := ⟨2, ![50, 50]⟩
abbrev S50x100 : Shape := ⟨2, ![50, 100]⟩
abbrev S100 : Shape := ⟨1, ![100]⟩
abbrev S100x50 : Shape := ⟨2, ![100, 50]⟩
abbrev S50x2 : Shape := ⟨2, ![50, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x50 : Shape := ⟨2, ![100000, 50]⟩
abbrev S1700000x50 : Shape := ⟨2, ![1700000, 50]⟩
abbrev S1x50 : Shape := ⟨2, ![1, 50]⟩
abbrev S100000x100 : Shape := ⟨2, ![100000, 100]⟩
abbrev S1700000x100 : Shape := ⟨2, ![1700000, 100]⟩
abbrev S1x100 : Shape := ⟨2, ![1, 100]⟩
abbrev S64x100 : Shape := ⟨2, ![64, 100]⟩
abbrev S100000x1 : Shape := ⟨2, ![100000, 1]⟩
abbrev S64 : Shape := ⟨1, ![64]⟩
abbrev S64x1 : Shape := ⟨2, ![64, 1]⟩
abbrev S64x50 : Shape := ⟨2, ![64, 50]⟩
abbrev S64x2 : Shape := ⟨2, ![64, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x50, .f32⟩
  | 4 => ⟨S50, .f32⟩
  | 5 => ⟨S50x50, .f32⟩
  | 6 => ⟨S50, .f32⟩
  | 7 => ⟨S50x50, .f32⟩
  | 8 => ⟨S50, .f32⟩
  | 9 => ⟨S50x100, .f32⟩
  | 10 => ⟨S100, .f32⟩
  | 11 => ⟨S100x50, .f32⟩
  | 12 => ⟨S50, .f32⟩
  | 13 => ⟨S50x2, .f32⟩
  | 14 => ⟨S2, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x50, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x50, .f32⟩
  | 65 => ⟨S1700000x1, .f32⟩
  | 66 => ⟨S1700000x50, .f32⟩
  | 67 => ⟨S1700000x50, .f32⟩
  | 68 => ⟨S_, .f32⟩
  | 69 => ⟨S100000x50, .f32⟩
  | 70 => ⟨S1700000x1, .i32⟩
  | 71 => ⟨S100000x50, .f32⟩
  | 72 => ⟨S1x50, .f32⟩
  | 73 => ⟨S100000x50, .f32⟩
  | 74 => ⟨S100000x50, .f32⟩
  | 75 => ⟨S_, .f32⟩
  | 76 => ⟨S100000x50, .f32⟩
  | 77 => ⟨S100000x50, .f32⟩
  | 78 => ⟨S100000x50, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x50, .f32⟩
  | 88 => ⟨S1700000x1, .f32⟩
  | 89 => ⟨S1700000x50, .f32⟩
  | 90 => ⟨S1700000x50, .f32⟩
  | 91 => ⟨S_, .f32⟩
  | 92 => ⟨S100000x50, .f32⟩
  | 93 => ⟨S1700000x1, .i32⟩
  | 94 => ⟨S100000x50, .f32⟩
  | 95 => ⟨S1x50, .f32⟩
  | 96 => ⟨S100000x50, .f32⟩
  | 97 => ⟨S100000x50, .f32⟩
  | 98 => ⟨S_, .f32⟩
  | 99 => ⟨S100000x50, .f32⟩
  | 100 => ⟨S100000x50, .f32⟩
  | 101 => ⟨S100000x50, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x50, .f32⟩
  | 111 => ⟨S1700000x1, .f32⟩
  | 112 => ⟨S1700000x50, .f32⟩
  | 113 => ⟨S1700000x50, .f32⟩
  | 114 => ⟨S_, .f32⟩
  | 115 => ⟨S100000x50, .f32⟩
  | 116 => ⟨S1700000x1, .i32⟩
  | 117 => ⟨S100000x50, .f32⟩
  | 118 => ⟨S1x50, .f32⟩
  | 119 => ⟨S100000x50, .f32⟩
  | 120 => ⟨S100000x50, .f32⟩
  | 121 => ⟨S_, .f32⟩
  | 122 => ⟨S100000x50, .f32⟩
  | 123 => ⟨S100000x50, .f32⟩
  | 124 => ⟨S100000x100, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x100, .f32⟩
  | 6 => ⟨S1700000x1, .f32⟩
  | 7 => ⟨S1700000x100, .f32⟩
  | 8 => ⟨S1700000x100, .f32⟩
  | 9 => ⟨S_, .f32⟩
  | 10 => ⟨S100000x100, .f32⟩
  | 11 => ⟨S1700000x1, .i32⟩
  | 12 => ⟨S100000x100, .f32⟩
  | 13 => ⟨S1x100, .f32⟩
  | 14 => ⟨S100000x100, .f32⟩
  | 15 => ⟨S100000x100, .f32⟩
  | 16 => ⟨S_, .f32⟩
  | 17 => ⟨S100000x100, .f32⟩
  | 18 => ⟨S100000x100, .f32⟩
  | 19 => ⟨S_, .f32⟩
  | 20 => ⟨S64x100, .f32⟩
  | 21 => ⟨S100000x1, .i32⟩
  | 22 => ⟨S64x100, .f32⟩
  | 23 => ⟨S_, .f32⟩
  | 24 => ⟨S100000, .f32⟩
  | 25 => ⟨S_, .f32⟩
  | 26 => ⟨S64, .f32⟩
  | 27 => ⟨S100000x1, .i32⟩
  | 28 => ⟨S64, .f32⟩
  | 29 => ⟨S_, .f32⟩
  | 30 => ⟨S64, .f32⟩
  | 31 => ⟨S64, .f32⟩
  | 32 => ⟨S64x1, .f32⟩
  | 33 => ⟨S64x100, .f32⟩
  | 34 => ⟨S64x100, .f32⟩
  | 35 => ⟨S64x50, .f32⟩
  | 36 => ⟨S1x50, .f32⟩
  | 37 => ⟨S64x50, .f32⟩
  | 38 => ⟨S64x50, .f32⟩
  | 39 => ⟨S64x2, .f32⟩
  | 40 => ⟨S1x2, .f32⟩
  | 41 => ⟨S64x2, .f32⟩
  | 42 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_c_12 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call3_cst : Ref sig .tc := ⟨.hbm, 121, rfl⟩
abbrev main_call3_v0 : Ref sig .tc := ⟨.hbm, 122, rfl⟩
abbrev main_v83 : Ref sig .tc := ⟨.hbm, 123, rfl⟩
abbrev main_v84 : Ref sig .tc := ⟨.hbm, 124, rfl⟩
abbrev main_c_15 : Ref sig .tc := ⟨.hbm, 125, rfl⟩
abbrev main_v85 : Ref sig .tc := ⟨.hbm, 126, rfl⟩
abbrev main_v86 : Ref sig .tc := ⟨.hbm, 127, rfl⟩
abbrev main_c_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_17 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call4_cst : Ref sig .tc := ⟨.hbm, 144, rfl⟩
abbrev main_call4_v0 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_19 : Ref sig .tc := ⟨.hbm, 151, rfl⟩
abbrev main_v105 : Ref sig .tc := ⟨.hbm, 152, rfl⟩
abbrev main_cst_20 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_21 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x50_0_1 : S1700000x1.BroadcastsInDim S1700000x50 (![0, 1] : Fin 2 → Fin S1700000x50.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S64x100 : S_.BroadcastsInDim S64x100 (![] : Fin 0 → Fin S64x100.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x100_0_1 : S64x1.BroadcastsInDim S64x100 (![0, 1] : Fin 2 → Fin S64x100.rank)
  bcast_S1x50_S64x50_0_1 : S1x50.BroadcastsInDim S64x50 (![0, 1] : Fin 2 → Fin S64x50.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x50_S100000x50_1_0_0_1_n_n_wf : DotDims.WF S100000x128 S128x50 S100000x50 [1] [0] [0] [1] [] []
  gather_S100000x50_S1700000x1_S1700000x50_1_0_n_n_0_1_150_wf : GatherDims.WF S100000x50 S1700000x1 S1700000x50 [1] [0] [] [0] [] 1 ![1, 50]
  scatter_S100000x50_S1700000x1_S1700000x50_1_0_0_1_wf : ScatterDims.WF S100000x50 S1700000x1 S1700000x50 [1] [0] [0] 1
  dot_S100000x50_S50x50_S100000x50_1_0_0_1_n_n_wf : DotDims.WF S100000x50 S50x50 S100000x50 [1] [0] [0] [1] [] []
  dot_S100000x50_S50x100_S100000x100_1_0_0_1_n_n_wf : DotDims.WF S100000x50 S50x100 S100000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  scatter_S64x100_S100000x1_S100000x100_1_0_0_1_wf : ScatterDims.WF S64x100 S100000x1 S100000x100 [1] [0] [0] 1
  scatter_S64_S100000x1_S100000_n_0_0_1_wf : ScatterDims.WF S64 S100000x1 S100000 [] [0] [0] 1
  dot_S64x100_S100x50_S64x50_1_0_0_1_n_n_wf : DotDims.WF S64x100 S100x50 S64x50 [1] [0] [0] [1] [] []
  dot_S64x50_S50x2_S64x2_1_0_0_1_n_n_wf : DotDims.WF S64x50 S50x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x50_S100000x50_1_0_0_1_n_n : DotDims S100000x128 S128x50 S100000x50 where
  lhsContracting := [1]
  rhsContracting := [0]
  lhsNonContracting := [0]
  rhsNonContracting := [1]
  lhsBatch := []
  rhsBatch := []
  wf := dot_S100000x128_S128x50_S100000x50_1_0_0_1_n_n_wf
def gather_S100000x50_S1700000x1_S1700000x50_1_0_n_n_0_1_150 : GatherDims S100000x50 S1700000x1 S1700000x50 where
  offsetDims := [1]
  collapsedSliceDims := [0]
  operandBatchingDims := []
  startIndicesBatchingDims := []
  startIndexMap := [0]
  indexVectorDim := 1
  sliceSizes := ![1, 50]
  wf := gather_S100000x50_S1700000x1_S1700000x50_1_0_n_n_0_1_150_wf
def scatter_S100000x50_S1700000x1_S1700000x50_1_0_0_1 : ScatterDims S100000x50 S1700000x1 S1700000x50 where
  updateWindowDims := [1]
  insertedWindowDims := [0]
  scatterDimsToOperandDims := [0]
  indexVectorDim := 1
  wf := scatter_S100000x50_S1700000x1_S1700000x50_1_0_0_1_wf
def dot_S100000x50_S50x50_S100000x50_1_0_0_1_n_n : DotDims S100000x50 S50x50 S100000x50 where
  lhsContracting := [1]
  rhsContracting := [0]
  lhsNonContracting := [0]
  rhsNonContracting := [1]
  lhsBatch := []
  rhsBatch := []
  wf := dot_S100000x50_S50x50_S100000x50_1_0_0_1_n_n_wf
def dot_S100000x50_S50x100_S100000x100_1_0_0_1_n_n : DotDims S100000x50 S50x100 S100000x100 where
  lhsContracting := [1]
  rhsContracting := [0]
  lhsNonContracting := [0]
  rhsNonContracting := [1]
  lhsBatch := []
  rhsBatch := []
  wf := dot_S100000x50_S50x100_S100000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def scatter_S64x100_S100000x1_S100000x100_1_0_0_1 : ScatterDims S64x100 S100000x1 S100000x100 where
  updateWindowDims := [1]
  insertedWindowDims := [0]
  scatterDimsToOperandDims := [0]
  indexVectorDim := 1
  wf := scatter_S64x100_S100000x1_S100000x100_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x100_S100x50_S64x50_1_0_0_1_n_n : DotDims S64x100 S100x50 S64x50 where
  lhsContracting := [1]
  rhsContracting := [0]
  lhsNonContracting := [0]
  rhsNonContracting := [1]
  lhsBatch := []
  rhsBatch := []
  wf := dot_S64x100_S100x50_S64x50_1_0_0_1_n_n_wf
def dot_S64x50_S50x2_S64x2_1_0_0_1_n_n : DotDims S64x50 S50x2 S64x2 where
  lhsContracting := [1]
  rhsContracting := [0]
  lhsNonContracting := [0]
  rhsNonContracting := [1]
  lhsBatch := []
  rhsBatch := []
  wf := dot_S64x50_S50x2_S64x2_1_0_0_1_n_n_wf

class Facts : Prop extends Facts₀ where

variable [Facts]
-- ==== Proof.K.Reg0.lean ====
import proofs.«403456_j6588479832097_3_alg».proof.Proof.Gen.Kernel.Launch
import proofs.«403456_j6588479832097_3_alg».proof.Proof.Gen.Kernel.Skeleton
import proofs.«403456_j6588479832097_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x128 := Rect.unit (s := S10000x128) ![0, 0] S10000x128.size inb_S10000x128_S10000x128_0_0
abbrev r0_1 : Rect S128x50 := Rect.unit (s := S128x50) ![0, 0] S128x50.size inb_S128x50_S128x50_0_0
abbrev r0_2 : Rect S10000x50 := Rect.unit (s := S10000x50) ![0, 0] S10000x50.size inb_S10000x50_S10000x50_0_0

def out0_2 (x0 : Vec F S10000x128 .f32) (x1 : Vec F S128x50 .f32) : Vec F S10000x50 .bf16 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = out0_2 (iblk0 V c 0 t) (iblk0 V c 1 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, after0_0, after0_1, after0_2]
  generalize iblk0 V c 0 t = x0, iblk0 V c 1 t = x1
  show _ ⊢ wp _ _ _ (bodyAt0 t) fun _ => iprop((dat0 V c).Φ t.castSucc ∗ _)
  simp only [bodyAt0, cc0__matmul_kernel_eq_skeleton]; unfold cc0__matmul_kernel_skel
  conv_lhs => unfold owns
  iintro ⟨HΦ, Ho, ⟨%_, %f0, %h0, H0⟩, ⟨%_, %f1, %h1, H1⟩, ⟨%_, %f2, -, H2⟩⟩
  subst h0 h1
  sl_exec
  sl_step
  iframe HΦ
  isplitl [Ho]; · iexact Ho
  isplitl [H0]; · iapply owns_intro; iexact H0
  isplitl [H1]; · iapply owns_intro; iexact H1
  unfold owns; iexists _; isplitr; swap; · iexact H2
  ipureintro
  exact View.read_writes_eq_canon _ _ _ (View.cover_of_tiled _ S10000x50.size (by rfl))

end Regions

end Cert.Kernel.Fr

end
-- ==== Proof.K.Reg1.lean ====
import proofs.«403456_j6588479832097_3_alg».proof.Proof.Gen.Kernel.Launch
import proofs.«403456_j6588479832097_3_alg».proof.Proof.Gen.Kernel.Skeleton
import proofs.«403456_j6588479832097_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x50 := Rect.unit (s := S10000x50) ![0, 0] S10000x50.size inb_S10000x50_S10000x50_0_0
abbrev r1_1 : Rect S1x50 := Rect.unit (s := S1x50) ![0, 0] S1x50.size inb_S1x50_S1x50_0_0
abbrev r1_2 : Rect S50x50 := Rect.unit (s := S50x50) ![0, 0] S50x50.size inb_S50x50_S50x50_0_0

def out1_3 (xa : Vec F S10000x50 .f32) (xb : Vec F S1x50 .f32) (xc : Vec F S50x50 .f32) : Vec F S10000x50 .bf16 :=
  View.canon [⟨r1_0, k1_pay1 (View.ld xa r1_0) (View.ld xb r1_1) (View.ld xc r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_3 (c : Dev nD) (t : Fin cfg1.N) : (dat1 V c).after 3 t = out1_3 (iblk1 V c 0 t) (iblk1 V c 1 t) (iblk1 V c 2 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2, after1_0, after1_1, after1_2, after1_3]
  generalize iblk1 V c 0 t = x0, iblk1 V c 1 t = x1, iblk1 V c 2 t = x2
  show _ ⊢ wp _ _ _ (bodyAt1 t) fun _ => iprop((dat1 V c).Φ t.castSucc ∗ _)
  simp only [bodyAt1, cc1__fused_kernel_eq_skeleton]; unfold cc1__fused_kernel_skel
  conv_lhs => unfold owns
  iintro ⟨HΦ, Ho, ⟨%_, %f0, %h0, H0⟩, ⟨%_, %f1, %h1, H1⟩, ⟨%_, %f2, %h2, H2⟩, ⟨%_, %f3, -, H3⟩⟩
  subst h0 h1 h2
  sl_exec
  sl_step
  iframe HΦ
  isplitl [Ho]; · iexact Ho
  isplitl [H0]; · iapply owns_intro; iexact H0
  isplitl [H1]; · iapply owns_intro; iexact H1
  isplitl [H2]; · iapply owns_intro; iexact H2
  unfold owns; iexists _; isplitr; swap; · iexact H3
  ipureintro
  exact View.read_writes_eq_canon _ _ _ (View.cover_of_tiled _ S10000x50.size (by rfl))

end Regions

end Cert.Kernel.Fr

end
-- ==== Proof.K.Reg2.lean ====
import proofs.«403456_j6588479832097_3_alg».proof.Proof.Gen.Kernel.Launch
import proofs.«403456_j6588479832097_3_alg».proof.Proof.Gen.Kernel.Skeleton
import proofs.«403456_j6588479832097_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

section Regions
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x50 := Rect.unit (s := S10000x50) ![0, 0] S10000x50.size inb_S10000x50_S10000x50_0_0
abbrev r2_1 : Rect S1x50 := Rect.unit (s := S1x50) ![0, 0] S1x50.size inb_S1x50_S1x50_0_0
abbrev r2_2 : Rect S50x50 := Rect.unit (s := S50x50) ![0, 0] S50x50.size inb_S50x50_S50x50_0_0

def out2_3 (xa : Vec F S10000x50 .f32) (xb : Vec F S1x50 .f32) (xc : Vec F S50x50 .f32) : Vec F S10000x50 .bf16 :=
  View.canon [⟨r2_0, k2_pay1 (View.ld xa r2_0) (View.ld xb r2_1) (View.ld xc r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) : (dat2 V c).after 3 t = out2_3 (iblk2 V c 0 t) (iblk2 V c 1 t) (iblk2 V c 2 t) := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2, after2_0, after2_1, after2_2, after2_3]
  generalize iblk2 V c 0 t = x0, iblk2 V c 1 t = x1, iblk2 V c 2 t = x2
  show _ ⊢ wp _ _ _ (bodyAt2 t) fun _ => iprop((dat2 V c).Φ t.castSucc ∗ _)
  simp only [bodyAt2, cc2__fused_kernel_eq_skeleton]; unfold cc2__fused_kernel_skel
  conv_lhs => unfold owns
  iintro ⟨HΦ, Ho, ⟨%_, %f0, %h0, H0⟩, ⟨%_, %f1, %h1, H1⟩, ⟨%_, %f2, %h2, H2⟩, ⟨%_, %f3, -, H3⟩⟩
  subst h0 h1 h2
  sl_exec
  sl_step
  iframe HΦ
  isplitl [Ho]; · iexact Ho
  isplitl [H0]; · iapply owns_intro; iexact H0
  isplitl [H1]; · iapply owns_intro; iexact H1
  isplitl [H2]; · iapply owns_intro; iexact H2
  unfold owns; iexists _; isplitr; swap; · iexact H3
  ipureintro
  exact View.read_writes_eq_canon _ _ _ (View.cover_of_tiled _ S10000x50.size (by rfl))

end Regions

end Cert.Kernel.Fr

end
-- ==== Proof.K.Reg3.lean ====
import proofs.«403456_j6588479832097_3_alg».proof.Proof.Gen.Kernel.Launch
import proofs.«403456_j6588479832097_3_alg».proof.Proof.Gen.Kernel.Skeleton
import proofs.«403456_j6588479832097_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
abbrev cond3_1 (i : grid3.Coords) : Prop := k3_cond2 i = 1#1
theorem hcond3_1 : ∀ t : Fin cfg3.N, cond3_1 (grid3.coords t) ↔ t.val = 19 :=
  (by decide +kernel : ∀ t : Fin grid3.N, cond3_1 (grid3.coords t) ↔ t.val = 19)

theorem cover3_one {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

local macro "rd3" : tactic => `(tactic| (
  sl_unfold_words
  rw [View.read_writes_eq_canon _ _ _ (cover3_one hz3 _ _ _), View.canon_cons_unit_zero hz3]
  simp only [View.readAt_eq_ld, View.ld_unit_zero (S := S5000x50) hz3, View.ld_unit_zero (S := S5000x1) hz3, View.ld_unit_zero (S := S50x100) hz3, View.ld_unit_zero (S := S1x100) hz3, View.ld_unit_zero (S := S100x50) hz3, View.ld_unit_zero (S := S1x50) hz3, View.ld_unit_zero (S := S50x2) hz3, View.ld_unit_zero (S := S1x2) hz3, View.ld_unit_zero (S := S64x2) hz3, View.ld_unit_zero (S := S64x100) hz3, View.ld_unit_zero (S := S64x1) hz3, View.readCov_unit_zero (S := S64x100) _ hz3, View.readCov_unit_zero (S := S64x1) _ hz3]))

set_option maxHeartbeats 1000000 in

theorem sound_kernel3 (c : Dev nD) (E : Set ℕ) (i : grid3.Coords) {arg1 harg1 arg2 harg2 arg3 harg3 arg4 harg4 arg5 harg5 arg6 harg6 arg7 harg7 arg8 harg8 arg9 harg9 arg10 harg10 arg11 harg11}
    (b0 b1 : Prop) [Decidable b0] [Decidable b1] (h0 : cond3_0 i ↔ b0) (h1 : cond3_1 i ↔ b1) (h01 : b0 → ¬b1)
    {x0 x1 x2 x3 x4 x5 x6 x7 d8 xs0 xs1} {K : PUnit → sProp 𝕄} :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare d8 ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (if b1 then k3_pay2 (k3_pay6 x0 x2 x3 x1 (if b0 then k3_pay3 else xs0)) (k3_pay1 (k3_pay7 x1 (if b0 then k3_pay4 else xs1))) x4 x5 x6 x7 else d8) ∗ owns (c : Thread nD τ) arg10 fullShare (k3_pay6 x0 x2 x3 x1 (if b0 then k3_pay3 else xs0)) ∗ owns (c : Thread nD τ) arg11 fullShare (k3_pay1 (k3_pay7 x1 (if b0 then k3_pay4 else xs1)))) -∗ K ⟨⟩))
      ⊢ wp frame (wpE (defs₀ (F := F)) Variants.none c none) E (cc3__pool_head_kernel i arg1 harg1 arg2 harg2 arg3 harg3 arg4 harg4 arg5 harg5 arg6 harg6 arg7 harg7 arg8 harg8 arg9 harg9 arg10 harg10 arg11 harg11) K := by
  simp only [cc3__pool_head_kernel_eq_skeleton]; unfold cc3__pool_head_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  subst hf0 hf1 hf2 hf3 hf4 hf5 hf6 hf7 hf8 hfs0 hfs1
  by_cases hb0 : b0 <;> by_cases hb1 : b1
  · exact absurd hb1 (h01 hb0)
  all_goals
    simp only [hb0, hb1, if_true, if_false]
    sl_exec (disch := first | exact h0.mpr hb0 | exact fun h => hb0 (h0.mp h) | exact h1.mpr hb1 | exact fun h => hb1 (h1.mp h))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      first | rfl | rd3
    isplitl [HS0]
    · iexists _; isplitr
      swap; · iexact HS0
      ipureintro
      rd3
    iexists _; isplitr
    swap; · iexact HS1
    ipureintro
    rd3

section Regions
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem idleAt3_8 : ∀ t : Fin cfg3.N, t.val ≠ 19 → cfg3.idle 8 (grid3.coords t) = true := by decide +kernel
theorem noFlush3_8 : ∀ t : Fin cfg3.N, t.val ≠ 19 → (cfg3.win 8).flush t = false := by decide +kernel
theorem liveAt3_8 : ∀ t : Fin cfg3.N, t.val = 19 → cfg3.idle 8 (grid3.coords t) = false := by decide +kernel

abbrev scM3_0 : Memref sig .tc .vmem S64x100 .f32 := Memref.whole cc3_scratch0
abbrev scM3_1 : Memref sig .tc .vmem S64x1 .f32 := Memref.whole cc3_scratch1

def others3 (c : Dev nD) : sProp 𝕄 := Pipeline.scopedRestBut spec3 c [cc3_scratch0, cc3_scratch1]

theorem PhiA3_eq (c : Dev nD) :
    (Pipeline.ΦA spec3 c : sProp 𝕄) = iprop((((∃ d, owns (c : Thread nD τ) scM3_0 fullShare d) ∗ (∃ d, owns (c : Thread nD τ) scM3_1 fullShare d)) ∗ others3 (F := F) c) ∗ (∃ r, prngReg c r)) := by
  unfold Pipeline.ΦA others3
  rw [Pipeline.scopedRest_split_of_list spec3 c [cc3_scratch0, cc3_scratch1] (by decide) (by decide)]
  simp only [scM3_0, scM3_1, owns_whole]
  rfl

def out3_none : Vec F S64x2 .f32 := View.canon []

def outsAt3 (c : Dev nD) : (n : ℕ) → n < cfg3.N → Vec F S64x2 .f32 × Vec F S64x100 .f32 × Vec F S64x1 .f32
  | 0, hn => (out3_none, (k3_pay6 (iblk3 V c 0 ⟨0, hn⟩) (iblk3 V c 2 ⟨0, hn⟩) (iblk3 V c 3 ⟨0, hn⟩) (iblk3 V c 1 ⟨0, hn⟩) k3_pay3), (k3_pay1 (k3_pay7 (iblk3 V c 1 ⟨0, hn⟩) k3_pay4)))
  | n + 1, hn =>
    (if n + 1 = 19 then (k3_pay2 (k3_pay6 (iblk3 V c 0 ⟨n + 1, hn⟩) (iblk3 V c 2 ⟨n + 1, hn⟩) (iblk3 V c 3 ⟨n + 1, hn⟩) (iblk3 V c 1 ⟨n + 1, hn⟩) (outsAt3 c n (Nat.lt_of_succ_lt hn)).2.1) (k3_pay1 (k3_pay7 (iblk3 V c 1 ⟨n + 1, hn⟩) (outsAt3 c n (Nat.lt_of_succ_lt hn)).2.2)) (iblk3 V c 4 ⟨n + 1, hn⟩) (iblk3 V c 5 ⟨n + 1, hn⟩) (iblk3 V c 6 ⟨n + 1, hn⟩) (iblk3 V c 7 ⟨n + 1, hn⟩))
      else (outsAt3 c n (Nat.lt_of_succ_lt hn)).1,
     (k3_pay6 (iblk3 V c 0 ⟨n + 1, hn⟩) (iblk3 V c 2 ⟨n + 1, hn⟩) (iblk3 V c 3 ⟨n + 1, hn⟩) (iblk3 V c 1 ⟨n + 1, hn⟩) (outsAt3 c n (Nat.lt_of_succ_lt hn)).2.1),
     (k3_pay1 (k3_pay7 (iblk3 V c 1 ⟨n + 1, hn⟩) (outsAt3 c n (Nat.lt_of_succ_lt hn)).2.2)))

theorem outsAt3_acc (c : Dev nD) (t : Fin cfg3.N) :
    (outsAt3 V c t.val t.isLt).2 = (k3_pay6 (iblk3 V c 0 t) (iblk3 V c 2 t) (iblk3 V c 3 t) (iblk3 V c 1 t) (if t.val = 0 then k3_pay3 else (outsAt3 V c (t.val - 1) (Nat.lt_of_le_of_lt (Nat.sub_le _ _) t.isLt)).2.1), k3_pay1 (k3_pay7 (iblk3 V c 1 t) (if t.val = 0 then k3_pay4 else (outsAt3 V c (t.val - 1) (Nat.lt_of_le_of_lt (Nat.sub_le _ _) t.isLt)).2.2))) := by
  obtain ⟨n, hn⟩ := t
  cases n <;> rfl

theorem outsAt3_C (c : Dev nD) (t : Fin cfg3.N) (h1 : t.val = 19) :
    outsAt3 V c t.val t.isLt = ((k3_pay2 (k3_pay6 (iblk3 V c 0 t) (iblk3 V c 2 t) (iblk3 V c 3 t) (iblk3 V c 1 t) (outsAt3 V c (t.val - 1) (Nat.lt_of_le_of_lt (Nat.sub_le _ _) t.isLt)).2.1) (k3_pay1 (k3_pay7 (iblk3 V c 1 t) (outsAt3 V c (t.val - 1) (Nat.lt_of_le_of_lt (Nat.sub_le _ _) t.isLt)).2.2)) (iblk3 V c 4 t) (iblk3 V c 5 t) (iblk3 V c 6 t) (iblk3 V c 7 t)), (k3_pay6 (iblk3 V c 0 t) (iblk3 V c 2 t) (iblk3 V c 3 t) (iblk3 V c 1 t) (outsAt3 V c (t.val - 1) (Nat.lt_of_le_of_lt (Nat.sub_le _ _) t.isLt)).2.1), (k3_pay1 (k3_pay7 (iblk3 V c 1 t) (outsAt3 V c (t.val - 1) (Nat.lt_of_le_of_lt (Nat.sub_le _ _) t.isLt)).2.2))) := by
  obtain ⟨n, hn⟩ := t
  cases n with
  | zero => exact absurd h1 (show ¬((0 : ℕ) = 19) by decide)
  | succ n =>
    show outsAt3 V c (n + 1) hn = _
    rw [outsAt3, if_pos h1]
    rfl

def accs3 (c : Dev nD) (a : Vec F S64x100 .f32) (b : Vec F S64x1 .f32) : sProp 𝕄 :=
  iprop(((owns (c : Thread nD τ) scM3_0 fullShare a ∗ owns (c : Thread nD τ) scM3_1 fullShare b) ∗ others3 (F := F) c) ∗ (∃ r, prngReg c r))

def PhiS3 (c : Dev nD) : (n : ℕ) → n ≤ cfg3.N → sProp 𝕄
  | 0, _ => Pipeline.ΦA spec3 c
  | n + 1, hn => accs3 c (outsAt3 V c n hn).2.1 (outsAt3 V c n hn).2.2

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = accs3 c (outsAt3 V c (n - 1) (by omega)).2.1 (outsAt3 V c (n - 1) (by omega)).2.2 := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d
theorem before3_6 (c : Dev nD) (t : Fin cfg3.N) (d) : (dat3 V c).before 6 t d = iblk3 V c 6 t :=
  (dat3 V c).before_in_eq_fetched 6 rfl (fun _ => rfl) (fun _ _ _ => rfl) (fun _ => rfl) t d
theorem before3_7 (c : Dev nD) (t : Fin cfg3.N) (d) : (dat3 V c).before 7 t d = iblk3 V c 7 t :=
  (dat3 V c).before_in_eq_fetched 7 rfl (fun _ => rfl) (fun _ _ _ => rfl) (fun _ => rfl) t d

set_option maxHeartbeats 4000000 in

theorem sound_body3 (c : Dev nD) (t : Fin cfg3.N) :
    iprop(PhiS3 V c t.val (Nat.le_of_lt t.isLt) ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))
      ⊢ wp frame (wpE (defs₀ (F := F)) Variants.none c none) Set.univ (bodyAt3 t) (fun _ =>
        iprop(accs3 c (outsAt3 V c t.val t.isLt).2.1 (outsAt3 V c t.val t.isLt).2.2 ∗ (dat3 V c).owesAt () t.castSucc
        ∗ owns (c : Thread nD τ) (st3_0 t) fullShare (iblk3 V c 0 t)
        ∗ owns (c : Thread nD τ) (st3_1 t) fullShare (iblk3 V c 1 t)
        ∗ owns (c : Thread nD τ) (st3_2 t) fullShare (iblk3 V c 2 t)
        ∗ owns (c : Thread nD τ) (st3_3 t) fullShare (iblk3 V c 3 t)
        ∗ owns (c : Thread nD τ) (st3_4 t) fullShare (iblk3 V c 4 t)
        ∗ owns (c : Thread nD τ) (st3_5 t) fullShare (iblk3 V c 5 t)
        ∗ owns (c : Thread nD τ) (st3_6 t) fullShare (iblk3 V c 6 t)
        ∗ owns (c : Thread nD τ) (st3_7 t) fullShare (iblk3 V c 7 t)
        ∗ (dat3 V c).leavesExact 8 t)) := by
  unfold bodyAt3
  simp only [before3_0, before3_1, before3_2, before3_3, before3_4, before3_5, before3_6, before3_7]
  by_cases h1 : t.val = 19
  · have h0 : t.val ≠ 0 := by omega
    rw [show (dat3 V c).leavesExact 8 t = owns (c : Thread nD τ) (st3_8 t) fullShare ((dat3 V c).after 8 t) from by
      unfold Dat.leavesExact; rw [liveAt3_8 t h1], after3_8, outsAt3_C V c t h1, PhiS3_pos V c _ _ h0]
    unfold accs3
    dsimp only
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel3 c Set.univ (grid3.coords t) (t.val = 0) (t.val = 19) (hcond3_0 t) (hcond3_1 t) (by omega))
    simp only [if_neg h0, if_pos h1]
    iframe
    iintro ⟨H0, H1, H2, H3, H4, H5, H6, H7, H8, HS0, HS1⟩
    iframe
  · rw [Dat.leavesExact_idle (dat3 V c) 8 t (idleAt3_8 t h1) (noFlush3_8 t h1), outsAt3_acc V c t]
    by_cases h0 : t.val = 0
    · rw [PhiS3_zero V c _ _ h0, PhiA3_eq]
      unfold accs3
      dsimp only
      iintro ⟨⟨⟨⟨⟨%a, HS0⟩, ⟨%b, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel3 c Set.univ (grid3.coords t) (t.val = 0) (t.val = 19) (hcond3_0 t) (hcond3_1 t) (by omega))
      simp only [if_pos h0, if_neg h1]
      iframe
      iintro ⟨H0, H1, H2, H3, H4, H5, H6, H7, H8, HS0, HS1⟩
      iframe
      iexists _; iexact H8
    · rw [PhiS3_pos V c _ _ h0]
      unfold accs3
      dsimp only
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel3 c Set.univ (grid3.coords t) (t.val = 0) (t.val = 19) (hcond3_0 t) (hcond3_1 t) (by omega))
      simp only [if_neg h0, if_neg h1]
      iframe
      iintro ⟨H0, H1, H2, H3, H4, H5, H6, H7, H8, HS0, HS1⟩
      iframe
      iexists _; iexact H8

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl, PhiS3_pos V c _ _ (by rw [Fin.val_last]; have : cfg3.N = 20 := N_3; omega), PhiA3_eq]
  unfold accs3
  iintro ⟨⟨⟨HS0, HS1⟩, HR⟩, Hg⟩
  iframe
  isplitl [HS0]
  · iexists _; iexact HS0
  iexists _; iexact HS1

end Regions

end Cert.Kernel.Fr

end
-- ==== Proof.K.Run.lean ====
import proofs.«403456_j6588479832097_3_alg».proof.Proof.K.Reg0
import proofs.«403456_j6588479832097_3_alg».proof.Proof.K.Reg1
import proofs.«403456_j6588479832097_3_alg».proof.Proof.K.Reg2
import proofs.«403456_j6588479832097_3_alg».proof.Proof.K.Reg3
import proofs.«403456_j6588479832097_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N :=
  Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) :=
  Pipeline.withArrays_of_ne spec0 c _ _ b hb
abbrev W4 : Dev nD → Valuation τ sig (Elt F) := fun c => StableHlo.after hostOps1 (W3 m c)
abbrev V4 : (c : Dev nD) → (b : Ref sig .tc) → Buf (Elt F) ((c : Thread nD τ).loc b) := fun c b => W4 m c b
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb
abbrev W6 : Dev nD → Valuation τ sig (Elt F) := fun c => StableHlo.after hostOps2 (W5 m c)
abbrev V6 : (c : Dev nD) → (b : Ref sig .tc) → Buf (Elt F) ((c : Thread nD τ).loc b) := fun c b => W6 m c b
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N :=
  Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) :=
  Pipeline.withArrays_of_ne spec2 c _ _ b hb
abbrev W8 : Dev nD → Valuation τ sig (Elt F) := fun c => StableHlo.after hostOps3 (W7 m c)
abbrev W9 : Dev nD → Valuation τ sig (Elt F) := fun c => StableHlo.after hostOps3_1 (W8 m c)
abbrev W10 : Dev nD → Valuation τ sig (Elt F) := fun c => StableHlo.after hostOps3_2 (W9 m c)
abbrev V10 : (c : Dev nD) → (b : Ref sig .tc) → Buf (Elt F) ((c : Thread nD τ).loc b) := fun c b => W10 m c b
def W11 (c : Dev nD) : Valuation τ sig (Elt F) :=
  Pipeline.withArrays spec3 c (W10 m c) fun w => (dat3 (V10 m) c).arrAt w cfg3.N
theorem W11_arr (c : Dev nD) (w : Fin cfg3.W) :
    W11 m c (Proc.devRef .tc (Pipeline.arrRef spec3 w)) = (dat3 (V10 m) c).arrAt w cfg3.N :=
  Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) :=
  Pipeline.withArrays_of_ne spec3 c _ _ b hb

def pdats : (p : Fin 4) → (c : Dev nD) → Dat τ (Elt F) Unit ℕ (UR sig nD τ) ℕ (Pipeline.pin (pcfgs (F := F)) adm p) c
  | ⟨0, _⟩ => dat0 (V2 m)
  | ⟨1, _⟩ => dat1 (V4 m)
  | ⟨2, _⟩ => dat2 (V6 m)
  | ⟨3, _⟩ => dat3 (V10 m)
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ T, owes (c : Thread nD τ) (0 : CellTallies nD τ sig Unit) T)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev exit (p : Fin 4) (W : Dev nD → Valuation τ sig (Elt F)) (c : Dev nD) : Valuation τ sig (Elt F) :=
  Pipeline.withArrays (cfgs p).spec c (W c) fun w => (pdats m p c).arrAt w (cfgs p).N

set_option backward.isDefEq.respectTransparency.types false in

def reg (p : Fin 4) (lf : Pipeline.LaunchFacts (nD := nD) (τ := τ) cfgs p) (W : Dev nD → Valuation τ sig (Elt F))
    (hq : ∀ c w, (pdats m p c).q w = fullShare)
    (hA : ∀ c w, (pdats m p c).A w = W c (Proc.devRef .tc (Pipeline.arrRef (cfgs p).spec w)))
    (howed : ∀ c t, (pdats m p c).owed t = 0) (hrec : ∀ c, (pdats m p c).recorded 0 = Set.univ)
    (hb : ∀ c, BodyObligation (pdats m p c) (defs₀ (F := F)) 𝒱₀ () Set.univ)
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (exit m p W c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%T, HO⟩; iexists T; isplitr; · ipureintro; exact fun _ _ => Or.inl (by rw [hrec c]; trivial)
      iexact HO
    isplitl [Hp]; · iexact Hp
    iexact Hrest
  hin c := by
    refine BIBase.Entails.trans ?_ (hi c); unfold Pipeline.ΦA
    iintro ⟨Hp, -, Hr⟩
    isplitl [Hr]; · iexact Hr
    iexact Hp
  hout c := by
    rw [Pipeline.ownSems0_none]
    refine (ho c).trans ?_; unfold Pipeline.ΦA
    iintro ⟨Hr, Hp⟩
    isplitl [Hp]; · iexact Hp
    isplitr; · iempintro
    iexact Hr
  hexit c := by
    have hF w : (pdats m p c).arrAt w (cfgs p).N = exit m p W c (Proc.devRef .tc (Pipeline.arrRef (cfgs p).spec w)) :=
      (Pipeline.withArrays_arr (cfgs p).spec lf.win.arr_inj c (W c) (fun w => (pdats m p c).arrAt w (cfgs p).N) w).symm
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => W c b) (fun b => exit m p W c b) ((pdats m p c).arrAt · (cfgs p).N) hF
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%T, -, HO⟩; iexists T; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg m 0 launch0 (W2 m) (fun _ _ => rfl) (fun _ _ => rfl) (fun _ _ => rfl) (fun _ => rfl) (body_obligation0 (V2 m)) (fun _ => .rfl) fun _ => .rfl),
    .host (hseg hostOps1 hostOps1_sub hostOps1_fresh (W3 m)),
    .region (reg m 1 launch1 (W4 m) (fun _ _ => rfl) (fun _ _ => rfl) (fun _ _ => rfl) (fun _ => rfl) (body_obligation1 (V4 m)) (fun _ => .rfl) fun _ => .rfl),
    .host (hseg hostOps2 hostOps2_sub hostOps2_fresh (W5 m)),
    .region (reg m 2 launch2 (W6 m) (fun _ _ => rfl) (fun _ _ => rfl) (fun _ _ => rfl) (fun _ => rfl) (body_obligation2 (V6 m)) (fun _ => .rfl) fun _ => .rfl),
    .host (hseg hostOps3 hostOps3_sub hostOps3_fresh (W7 m)),
    .host (hseg hostOps3_1 hostOps3_1_sub hostOps3_1_fresh (W8 m)),
    .host (hseg hostOps3_2 hostOps3_2_sub hostOps3_2_fresh (W9 m)),
    .region (reg m 3 launch3 (W10 m) (fun _ _ => rfl) (fun _ _ => rfl) (fun _ _ => rfl) (fun _ => rfl) (body_obligation3 (V10 m)) (hin3 (V10 m)) (hout3 (V10 m))) ]
theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.Kernel.Fr

end
-- ==== Proof.K.Back.lean ====
import proofs.«403456_j6588479832097_3_alg».proof.Proof.K.Run

set_option maxRecDepth 16384

noncomputable section

namespace Cert.Kernel.Fr

open Idealize.ShloMosaic Idealize.ShloMosaic.TcCoe Idealize.ShloMosaic.Tactic
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W4_of (c : Dev nD) (r : Ref sig .tc) (h : r ∉ hostOps1_W) : W4 m c (Proc.devRef .tc r) = W3 m c (Proc.devRef .tc r) :=
  StableHlo.after_of_writes_sub hostOps1 _ hostOps1_writes h
theorem W6_of (c : Dev nD) (r : Ref sig .tc) (h : r ∉ hostOps2_W) : W6 m c (Proc.devRef .tc r) = W5 m c (Proc.devRef .tc r) :=
  StableHlo.after_of_writes_sub hostOps2 _ hostOps2_writes h
theorem W8_of (c : Dev nD) (r : Ref sig .tc) (h : r ∉ hostOps3_W) : W8 m c (Proc.devRef .tc r) = W7 m c (Proc.devRef .tc r) :=
  StableHlo.after_of_writes_sub hostOps3 _ hostOps3_writes h
theorem W9_of (c : Dev nD) (r : Ref sig .tc) (h : r ∉ hostOps3_1_W) : W9 m c (Proc.devRef .tc r) = W8 m c (Proc.devRef .tc r) :=
  StableHlo.after_of_writes_sub hostOps3_1 _ hostOps3_1_writes h
theorem W10_of (c : Dev nD) (r : Ref sig .tc) (h : r ∉ hostOps3_2_W) : W10 m c (Proc.devRef .tc r) = W9 m c (Proc.devRef .tc r) :=
  StableHlo.after_of_writes_sub hostOps3_2 _ hostOps3_2_writes h

theorem kept {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (r : Ref sig .tc) (h : ∀ w, Pipeline.arrRef cfg.spec w = r → (cfg.win w).isOut = false) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    rw [Pipeline.withArrays_arr _ hinj, dat.arrAt_in w (h w rfl), hA]
  · exact Pipeline.withArrays_of_ne _ c _ _ r fun w e => hr ⟨w, e⟩

theorem back (c : Dev nD) (r : Ref sig .tc)
    (h : r ∉ hostOps0_W ∧ r ∉ hostOps0_1_W ∧ r ∉ hostOps1_W ∧ r ∉ hostOps2_W ∧ r ∉ hostOps3_W ∧ r ∉ hostOps3_1_W ∧ r ∉ hostOps3_2_W
      ∧ (∀ w, Pipeline.arrRef spec0 w = r → (cfg0.win w).isOut = false) ∧ (∀ w, Pipeline.arrRef spec1 w = r → (cfg1.win w).isOut = false)
      ∧ (∀ w, Pipeline.arrRef spec2 w = r → (cfg2.win w).isOut = false) ∧ ∀ w, Pipeline.arrRef spec3 w = r → (cfg3.win w).isOut = false) :
    W11 m c (Proc.devRef .tc r) = m ((c : Thread nD τ).loc r) := by
  obtain ⟨h0, h1, h3, h5, h7, h8, h9, e0, e1, e2, e3⟩ := h
  exact (kept (dat3 (V10 m) c) (W10 m c) launch3.win.arr_inj (A_eq3 (V10 m) c) r e3).trans <| (W10_of m c r h9).trans <| (W9_of m c r h8).trans <|
    (W8_of m c r h7).trans <| (kept (dat2 (V6 m) c) (W6 m c) launch2.win.arr_inj (A_eq2 (V6 m) c) r e2).trans <| (W6_of m c r h5).trans <|
    (kept (dat1 (V4 m) c) (W4 m c) launch1.win.arr_inj (A_eq1 (V4 m) c) r e1).trans <| (W4_of m c r h3).trans <|
    (kept (dat0 (V2 m) c) (W2 m c) launch0.win.arr_inj (A_eq0 (V2 m) c) r e0).trans <| (W2_of m c r h1).trans (W1_of m c r h0)

theorem args_kept (c : Dev nD) {mem : (ℓ : Loc nD τ sig) → Buf (Elt F) ℓ}
    (h : ∀ b ∈ Pipeline.ucRefs τ sig, mem ((c : Thread nD τ).1, b) = W11 m c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14) := by
  refine ⟨?_, ?_, ?_, ?_, ?_, ?_, ?_, ?_, ?_, ?_, ?_, ?_, ?_, ?_, ?_⟩ <;>
    exact (h _ (mem_uc _ (by decide))).trans (back m c _ (by decide))

theorem W11_main_v103 (c : Dev nD) : W11 m c (Proc.devRef .tc main_v103) = (dat3 (V10 m) c).arrAt 8 cfg3.N :=
  W11_arr m c 8

end Cert.Kernel.Fr

end
-- ==== Proof.KI.Reg0.lean ====
import proofs.«403456_j6588479832097_3_alg».proof.Proof.Gen.KernelIdeal.Launch
import proofs.«403456_j6588479832097_3_alg».proof.Proof.Gen.KernelIdeal.Skeleton
import proofs.«403456_j6588479832097_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x128 := Rect.unit (s := S10000x128) ![0, 0] S10000x128.size inb_S10000x128_S10000x128_0_0
abbrev r0_1 : Rect S128x50 := Rect.unit (s := S128x50) ![0, 0] S128x50.size inb_S128x50_S128x50_0_0
abbrev r0_2 : Rect S10000x50 := Rect.unit (s := S10000x50) ![0, 0] S10000x50.size inb_S10000x50_S10000x50_0_0

def out0_2 (x0 : Vec F S10000x128 .f32) (x1 : Vec F S128x50 .f32) : Vec F S10000x50 .bf16 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = out0_2 (iblk0 V c 0 t) (iblk0 V c 1 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, after0_0, after0_1, after0_2]
  generalize iblk0 V c 0 t = x0, iblk0 V c 1 t = x1
  show _ ⊢ wp _ _ _ (bodyAt0 t) fun _ => iprop((dat0 V c).Φ t.castSucc ∗ _)
  simp only [bodyAt0, cc0__matmul_kernel_eq_skeleton]; unfold cc0__matmul_kernel_skel
  conv_lhs => unfold owns
  iintro ⟨HΦ, Ho, ⟨%_, %f0, %h0, H0⟩, ⟨%_, %f1, %h1, H1⟩, ⟨%_, %f2, -, H2⟩⟩
  subst h0 h1
  sl_exec
  sl_step
  iframe HΦ
  isplitl [Ho]; · iexact Ho
  isplitl [H0]; · iapply owns_intro; iexact H0
  isplitl [H1]; · iapply owns_intro; iexact H1
  unfold owns; iexists _; isplitr; swap; · iexact H2
  ipureintro
  exact View.read_writes_eq_canon _ _ _ (View.cover_of_tiled _ S10000x50.size (by rfl))

end Regions

end Cert.KernelIdeal.Fr

end
-- ==== Proof.KI.Reg1.lean ====
import proofs.«403456_j6588479832097_3_alg».proof.Proof.Gen.KernelIdeal.Launch
import proofs.«403456_j6588479832097_3_alg».proof.Proof.Gen.KernelIdeal.Skeleton
import proofs.«403456_j6588479832097_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x50 := Rect.unit (s := S10000x50) ![0, 0] S10000x50.size inb_S10000x50_S10000x50_0_0
abbrev r1_1 : Rect S1x50 := Rect.unit (s := S1x50) ![0, 0] S1x50.size inb_S1x50_S1x50_0_0
abbrev r1_2 : Rect S50x50 := Rect.unit (s := S50x50) ![0, 0] S50x50.size inb_S50x50_S50x50_0_0

def out1_3 (xa : Vec F S10000x50 .f32) (xb : Vec F S1x50 .f32) (xc : Vec F S50x50 .f32) : Vec F S10000x50 .bf16 :=
  View.canon [⟨r1_0, k1_pay1 (View.ld xa r1_0) (View.ld xb r1_1) (View.ld xc r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_3 (c : Dev nD) (t : Fin cfg1.N) : (dat1 V c).after 3 t = out1_3 (iblk1 V c 0 t) (iblk1 V c 1 t) (iblk1 V c 2 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2, after1_0, after1_1, after1_2, after1_3]
  generalize iblk1 V c 0 t = x0, iblk1 V c 1 t = x1, iblk1 V c 2 t = x2
  show _ ⊢ wp _ _ _ (bodyAt1 t) fun _ => iprop((dat1 V c).Φ t.castSucc ∗ _)
  simp only [bodyAt1, cc1__fused_kernel_eq_skeleton]; unfold cc1__fused_kernel_skel
  conv_lhs => unfold owns
  iintro ⟨HΦ, Ho, ⟨%_, %f0, %h0, H0⟩, ⟨%_, %f1, %h1, H1⟩, ⟨%_, %f2, %h2, H2⟩, ⟨%_, %f3, -, H3⟩⟩
  subst h0 h1 h2
  sl_exec
  sl_step
  iframe HΦ
  isplitl [Ho]; · iexact Ho
  isplitl [H0]; · iapply owns_intro; iexact H0
  isplitl [H1]; · iapply owns_intro; iexact H1
  isplitl [H2]; · iapply owns_intro; iexact H2
  unfold owns; iexists _; isplitr; swap; · iexact H3
  ipureintro
  exact View.read_writes_eq_canon _ _ _ (View.cover_of_tiled _ S10000x50.size (by rfl))

end Regions

end Cert.KernelIdeal.Fr

end
-- ==== Proof.KI.Reg2.lean ====
import proofs.«403456_j6588479832097_3_alg».proof.Proof.Gen.KernelIdeal.Launch
import proofs.«403456_j6588479832097_3_alg».proof.Proof.Gen.KernelIdeal.Skeleton
import proofs.«403456_j6588479832097_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

section Regions
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x50 := Rect.unit (s := S10000x50) ![0, 0] S10000x50.size inb_S10000x50_S10000x50_0_0
abbrev r2_1 : Rect S1x50 := Rect.unit (s := S1x50) ![0, 0] S1x50.size inb_S1x50_S1x50_0_0
abbrev r2_2 : Rect S50x50 := Rect.unit (s := S50x50) ![0, 0] S50x50.size inb_S50x50_S50x50_0_0

def out2_3 (xa : Vec F S10000x50 .f32) (xb : Vec F S1x50 .f32) (xc : Vec F S50x50 .f32) : Vec F S10000x50 .bf16 :=
  View.canon [⟨r2_0, k2_pay1 (View.ld xa r2_0) (View.ld xb r2_1) (View.ld xc r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) : (dat2 V c).after 3 t = out2_3 (iblk2 V c 0 t) (iblk2 V c 1 t) (iblk2 V c 2 t) := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2, after2_0, after2_1, after2_2, after2_3]
  generalize iblk2 V c 0 t = x0, iblk2 V c 1 t = x1, iblk2 V c 2 t = x2
  show _ ⊢ wp _ _ _ (bodyAt2 t) fun _ => iprop((dat2 V c).Φ t.castSucc ∗ _)
  simp only [bodyAt2, cc2__fused_kernel_eq_skeleton]; unfold cc2__fused_kernel_skel
  conv_lhs => unfold owns
  iintro ⟨HΦ, Ho, ⟨%_, %f0, %h0, H0⟩, ⟨%_, %f1, %h1, H1⟩, ⟨%_, %f2, %h2, H2⟩, ⟨%_, %f3, -, H3⟩⟩
  subst h0 h1 h2
  sl_exec
  sl_step
  iframe HΦ
  isplitl [Ho]; · iexact Ho
  isplitl [H0]; · iapply owns_intro; iexact H0
  isplitl [H1]; · iapply owns_intro; iexact H1
  isplitl [H2]; · iapply owns_intro; iexact H2
  unfold owns; iexists _; isplitr; swap; · iexact H3
  ipureintro
  exact View.read_writes_eq_canon _ _ _ (View.cover_of_tiled _ S10000x50.size (by rfl))

end Regions

end Cert.KernelIdeal.Fr

end
-- ==== Proof.KI.Reg3.lean ====
import proofs.«403456_j6588479832097_3_alg».proof.Proof.Gen.KernelIdeal.Launch
import proofs.«403456_j6588479832097_3_alg».proof.Proof.Gen.KernelIdeal.Skeleton
import proofs.«403456_j6588479832097_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
abbrev cond3_1 (i : grid3.Coords) : Prop := k3_cond2 i = 1#1
theorem hcond3_1 : ∀ t : Fin cfg3.N, cond3_1 (grid3.coords t) ↔ t.val = 19 :=
  (by decide +kernel : ∀ t : Fin grid3.N, cond3_1 (grid3.coords t) ↔ t.val = 19)

theorem cover3_one {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

local macro "rd3" : tactic => `(tactic| (
  sl_unfold_words
  rw [View.read_writes_eq_canon _ _ _ (cover3_one hz3 _ _ _), View.canon_cons_unit_zero hz3]
  simp only [View.readAt_eq_ld, View.ld_unit_zero (S := S5000x50) hz3, View.ld_unit_zero (S := S5000x1) hz3, View.ld_unit_zero (S := S50x100) hz3, View.ld_unit_zero (S := S1x100) hz3, View.ld_unit_zero (S := S100x50) hz3, View.ld_unit_zero (S := S1x50) hz3, View.ld_unit_zero (S := S50x2) hz3, View.ld_unit_zero (S := S1x2) hz3, View.ld_unit_zero (S := S64x2) hz3, View.ld_unit_zero (S := S64x100) hz3, View.ld_unit_zero (S := S64x1) hz3, View.readCov_unit_zero (S := S64x100) _ hz3, View.readCov_unit_zero (S := S64x1) _ hz3]))

set_option maxHeartbeats 1000000 in

theorem sound_kernel3 (c : Dev nD) (E : Set ℕ) (i : grid3.Coords) {arg1 harg1 arg2 harg2 arg3 harg3 arg4 harg4 arg5 harg5 arg6 harg6 arg7 harg7 arg8 harg8 arg9 harg9 arg10 harg10 arg11 harg11}
    (b0 b1 : Prop) [Decidable b0] [Decidable b1] (h0 : cond3_0 i ↔ b0) (h1 : cond3_1 i ↔ b1) (h01 : b0 → ¬b1)
    {x0 x1 x2 x3 x4 x5 x6 x7 d8 xs0 xs1} {K : PUnit → sProp 𝕄} :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ owns (c : Thread nD τ) arg9 fullShare d8 ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (if b1 then k3_pay2 (k3_pay6 x0 x2 x3 x1 (if b0 then k3_pay3 else xs0)) (k3_pay1 (k3_pay7 x1 (if b0 then k3_pay4 else xs1))) x4 x5 x6 x7 else d8) ∗ owns (c : Thread nD τ) arg10 fullShare (k3_pay6 x0 x2 x3 x1 (if b0 then k3_pay3 else xs0)) ∗ owns (c : Thread nD τ) arg11 fullShare (k3_pay1 (k3_pay7 x1 (if b0 then k3_pay4 else xs1)))) -∗ K ⟨⟩))
      ⊢ wp frame (wpE (defs₀ (F := F)) Variants.none c none) E (cc3__pool_head_kernel i arg1 harg1 arg2 harg2 arg3 harg3 arg4 harg4 arg5 harg5 arg6 harg6 arg7 harg7 arg8 harg8 arg9 harg9 arg10 harg10 arg11 harg11) K := by
  simp only [cc3__pool_head_kernel_eq_skeleton]; unfold cc3__pool_head_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  subst hf0 hf1 hf2 hf3 hf4 hf5 hf6 hf7 hf8 hfs0 hfs1
  by_cases hb0 : b0 <;> by_cases hb1 : b1
  · exact absurd hb1 (h01 hb0)
  all_goals
    simp only [hb0, hb1, if_true, if_false]
    sl_exec (disch := first | exact h0.mpr hb0 | exact fun h => hb0 (h0.mp h) | exact h1.mpr hb1 | exact fun h => hb1 (h1.mp h))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      first | rfl | rd3
    isplitl [HS0]
    · iexists _; isplitr
      swap; · iexact HS0
      ipureintro
      rd3
    iexists _; isplitr
    swap; · iexact HS1
    ipureintro
    rd3

section Regions
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem idleAt3_8 : ∀ t : Fin cfg3.N, t.val ≠ 19 → cfg3.idle 8 (grid3.coords t) = true := by decide +kernel
theorem noFlush3_8 : ∀ t : Fin cfg3.N, t.val ≠ 19 → (cfg3.win 8).flush t = false := by decide +kernel
theorem liveAt3_8 : ∀ t : Fin cfg3.N, t.val = 19 → cfg3.idle 8 (grid3.coords t) = false := by decide +kernel

abbrev scM3_0 : Memref sig .tc .vmem S64x100 .f32 := Memref.whole cc3_scratch0
abbrev scM3_1 : Memref sig .tc .vmem S64x1 .f32 := Memref.whole cc3_scratch1

def others3 (c : Dev nD) : sProp 𝕄 := Pipeline.scopedRestBut spec3 c [cc3_scratch0, cc3_scratch1]

theorem PhiA3_eq (c : Dev nD) :
    (Pipeline.ΦA spec3 c : sProp 𝕄) = iprop((((∃ d, owns (c : Thread nD τ) scM3_0 fullShare d) ∗ (∃ d, owns (c : Thread nD τ) scM3_1 fullShare d)) ∗ others3 (F := F) c) ∗ (∃ r, prngReg c r)) := by
  unfold Pipeline.ΦA others3
  rw [Pipeline.scopedRest_split_of_list spec3 c [cc3_scratch0, cc3_scratch1] (by decide) (by decide)]
  simp only [scM3_0, scM3_1, owns_whole]
  rfl

def out3_none : Vec F S64x2 .f32 := View.canon []

def outsAt3 (c : Dev nD) : (n : ℕ) → n < cfg3.N → Vec F S64x2 .f32 × Vec F S64x100 .f32 × Vec F S64x1 .f32
  | 0, hn => (out3_none, (k3_pay6 (iblk3 V c 0 ⟨0, hn⟩) (iblk3 V c 2 ⟨0, hn⟩) (iblk3 V c 3 ⟨0, hn⟩) (iblk3 V c 1 ⟨0, hn⟩) k3_pay3), (k3_pay1 (k3_pay7 (iblk3 V c 1 ⟨0, hn⟩) k3_pay4)))
  | n + 1, hn =>
    (if n + 1 = 19 then (k3_pay2 (k3_pay6 (iblk3 V c 0 ⟨n + 1, hn⟩) (iblk3 V c 2 ⟨n + 1, hn⟩) (iblk3 V c 3 ⟨n + 1, hn⟩) (iblk3 V c 1 ⟨n + 1, hn⟩) (outsAt3 c n (Nat.lt_of_succ_lt hn)).2.1) (k3_pay1 (k3_pay7 (iblk3 V c 1 ⟨n + 1, hn⟩) (outsAt3 c n (Nat.lt_of_succ_lt hn)).2.2)) (iblk3 V c 4 ⟨n + 1, hn⟩) (iblk3 V c 5 ⟨n + 1, hn⟩) (iblk3 V c 6 ⟨n + 1, hn⟩) (iblk3 V c 7 ⟨n + 1, hn⟩))
      else (outsAt3 c n (Nat.lt_of_succ_lt hn)).1,
     (k3_pay6 (iblk3 V c 0 ⟨n + 1, hn⟩) (iblk3 V c 2 ⟨n + 1, hn⟩) (iblk3 V c 3 ⟨n + 1, hn⟩) (iblk3 V c 1 ⟨n + 1, hn⟩) (outsAt3 c n (Nat.lt_of_succ_lt hn)).2.1),
     (k3_pay1 (k3_pay7 (iblk3 V c 1 ⟨n + 1, hn⟩) (outsAt3 c n (Nat.lt_of_succ_lt hn)).2.2)))

theorem outsAt3_acc (c : Dev nD) (t : Fin cfg3.N) :
    (outsAt3 V c t.val t.isLt).2 = (k3_pay6 (iblk3 V c 0 t) (iblk3 V c 2 t) (iblk3 V c 3 t) (iblk3 V c 1 t) (if t.val = 0 then k3_pay3 else (outsAt3 V c (t.val - 1) (Nat.lt_of_le_of_lt (Nat.sub_le _ _) t.isLt)).2.1), k3_pay1 (k3_pay7 (iblk3 V c 1 t) (if t.val = 0 then k3_pay4 else (outsAt3 V c (t.val - 1) (Nat.lt_of_le_of_lt (Nat.sub_le _ _) t.isLt)).2.2))) := by
  obtain ⟨n, hn⟩ := t
  cases n <;> rfl

theorem outsAt3_C (c : Dev nD) (t : Fin cfg3.N) (h1 : t.val = 19) :
    outsAt3 V c t.val t.isLt = ((k3_pay2 (k3_pay6 (iblk3 V c 0 t) (iblk3 V c 2 t) (iblk3 V c 3 t) (iblk3 V c 1 t) (outsAt3 V c (t.val - 1) (Nat.lt_of_le_of_lt (Nat.sub_le _ _) t.isLt)).2.1) (k3_pay1 (k3_pay7 (iblk3 V c 1 t) (outsAt3 V c (t.val - 1) (Nat.lt_of_le_of_lt (Nat.sub_le _ _) t.isLt)).2.2)) (iblk3 V c 4 t) (iblk3 V c 5 t) (iblk3 V c 6 t) (iblk3 V c 7 t)), (k3_pay6 (iblk3 V c 0 t) (iblk3 V c 2 t) (iblk3 V c 3 t) (iblk3 V c 1 t) (outsAt3 V c (t.val - 1) (Nat.lt_of_le_of_lt (Nat.sub_le _ _) t.isLt)).2.1), (k3_pay1 (k3_pay7 (iblk3 V c 1 t) (outsAt3 V c (t.val - 1) (Nat.lt_of_le_of_lt (Nat.sub_le _ _) t.isLt)).2.2))) := by
  obtain ⟨n, hn⟩ := t
  cases n with
  | zero => exact absurd h1 (show ¬((0 : ℕ) = 19) by decide)
  | succ n =>
    show outsAt3 V c (n + 1) hn = _
    rw [outsAt3, if_pos h1]
    rfl

def accs3 (c : Dev nD) (a : Vec F S64x100 .f32) (b : Vec F S64x1 .f32) : sProp 𝕄 :=
  iprop(((owns (c : Thread nD τ) scM3_0 fullShare a ∗ owns (c : Thread nD τ) scM3_1 fullShare b) ∗ others3 (F := F) c) ∗ (∃ r, prngReg c r))

def PhiS3 (c : Dev nD) : (n : ℕ) → n ≤ cfg3.N → sProp 𝕄
  | 0, _ => Pipeline.ΦA spec3 c
  | n + 1, hn => accs3 c (outsAt3 V c n hn).2.1 (outsAt3 V c n hn).2.2

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) :
    PhiS3 V c n h = accs3 c (outsAt3 V c (n - 1) (by omega)).2.1 (outsAt3 V c (n - 1) (by omega)).2.2 := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d
theorem before3_6 (c : Dev nD) (t : Fin cfg3.N) (d) : (dat3 V c).before 6 t d = iblk3 V c 6 t :=
  (dat3 V c).before_in_eq_fetched 6 rfl (fun _ => rfl) (fun _ _ _ => rfl) (fun _ => rfl) t d
theorem before3_7 (c : Dev nD) (t : Fin cfg3.N) (d) : (dat3 V c).before 7 t d = iblk3 V c 7 t :=
  (dat3 V c).before_in_eq_fetched 7 rfl (fun _ => rfl) (fun _ _ _ => rfl) (fun _ => rfl) t d

set_option maxHeartbeats 4000000 in

theorem sound_body3 (c : Dev nD) (t : Fin cfg3.N) :
    iprop(PhiS3 V c t.val (Nat.le_of_lt t.isLt) ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))
      ⊢ wp frame (wpE (defs₀ (F := F)) Variants.none c none) Set.univ (bodyAt3 t) (fun _ =>
        iprop(accs3 c (outsAt3 V c t.val t.isLt).2.1 (outsAt3 V c t.val t.isLt).2.2 ∗ (dat3 V c).owesAt () t.castSucc
        ∗ owns (c : Thread nD τ) (st3_0 t) fullShare (iblk3 V c 0 t)
        ∗ owns (c : Thread nD τ) (st3_1 t) fullShare (iblk3 V c 1 t)
        ∗ owns (c : Thread nD τ) (st3_2 t) fullShare (iblk3 V c 2 t)
        ∗ owns (c : Thread nD τ) (st3_3 t) fullShare (iblk3 V c 3 t)
        ∗ owns (c : Thread nD τ) (st3_4 t) fullShare (iblk3 V c 4 t)
        ∗ owns (c : Thread nD τ) (st3_5 t) fullShare (iblk3 V c 5 t)
        ∗ owns (c : Thread nD τ) (st3_6 t) fullShare (iblk3 V c 6 t)
        ∗ owns (c : Thread nD τ) (st3_7 t) fullShare (iblk3 V c 7 t)
        ∗ (dat3 V c).leavesExact 8 t)) := by
  unfold bodyAt3
  simp only [before3_0, before3_1, before3_2, before3_3, before3_4, before3_5, before3_6, before3_7]
  by_cases h1 : t.val = 19
  · have h0 : t.val ≠ 0 := by omega
    rw [show (dat3 V c).leavesExact 8 t = owns (c : Thread nD τ) (st3_8 t) fullShare ((dat3 V c).after 8 t) from by
      unfold Dat.leavesExact; rw [liveAt3_8 t h1], after3_8, outsAt3_C V c t h1, PhiS3_pos V c _ _ h0]
    unfold accs3
    dsimp only
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel3 c Set.univ (grid3.coords t) (t.val = 0) (t.val = 19) (hcond3_0 t) (hcond3_1 t) (by omega))
    simp only [if_neg h0, if_pos h1]
    iframe
    iintro ⟨H0, H1, H2, H3, H4, H5, H6, H7, H8, HS0, HS1⟩
    iframe
  · rw [Dat.leavesExact_idle (dat3 V c) 8 t (idleAt3_8 t h1) (noFlush3_8 t h1), outsAt3_acc V c t]
    by_cases h0 : t.val = 0
    · rw [PhiS3_zero V c _ _ h0, PhiA3_eq]
      unfold accs3
      dsimp only
      iintro ⟨⟨⟨⟨⟨%a, HS0⟩, ⟨%b, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel3 c Set.univ (grid3.coords t) (t.val = 0) (t.val = 19) (hcond3_0 t) (hcond3_1 t) (by omega))
      simp only [if_pos h0, if_neg h1]
      iframe
      iintro ⟨H0, H1, H2, H3, H4, H5, H6, H7, H8, HS0, HS1⟩
      iframe
      iexists _; iexact H8
    · rw [PhiS3_pos V c _ _ h0]
      unfold accs3
      dsimp only
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel3 c Set.univ (grid3.coords t) (t.val = 0) (t.val = 19) (hcond3_0 t) (hcond3_1 t) (by omega))
      simp only [if_neg h0, if_neg h1]
      iframe
      iintro ⟨H0, H1, H2, H3, H4, H5, H6, H7, H8, HS0, HS1⟩
      iframe
      iexists _; iexact H8

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl, PhiS3_pos V c _ _ (by rw [Fin.val_last]; have : cfg3.N = 20 := N_3; omega), PhiA3_eq]
  unfold accs3
  iintro ⟨⟨⟨HS0, HS1⟩, HR⟩, Hg⟩
  iframe
  isplitl [HS0]
  · iexists _; iexact HS0
  iexists _; iexact HS1

end Regions

end Cert.KernelIdeal.Fr

end
-- ==== Proof.KI.Run.lean ====
import proofs.«403456_j6588479832097_3_alg».proof.Proof.KI.Reg0
import proofs.«403456_j6588479832097_3_alg».proof.Proof.KI.Reg1
import proofs.«403456_j6588479832097_3_alg».proof.Proof.KI.Reg2
import proofs.«403456_j6588479832097_3_alg».proof.Proof.KI.Reg3
import proofs.«403456_j6588479832097_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N :=
  Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) :=
  Pipeline.withArrays_of_ne spec0 c _ _ b hb
abbrev W4 : Dev nD → Valuation τ sig (Elt F) := fun c => StableHlo.after hostOps1 (W3 m c)
abbrev V4 : (c : Dev nD) → (b : Ref sig .tc) → Buf (Elt F) ((c : Thread nD τ).loc b) := fun c b => W4 m c b
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb
abbrev W6 : Dev nD → Valuation τ sig (Elt F) := fun c => StableHlo.after hostOps2 (W5 m c)
abbrev V6 : (c : Dev nD) → (b : Ref sig .tc) → Buf (Elt F) ((c : Thread nD τ).loc b) := fun c b => W6 m c b
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N :=
  Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) :=
  Pipeline.withArrays_of_ne spec2 c _ _ b hb
abbrev W8 : Dev nD → Valuation τ sig (Elt F) := fun c => StableHlo.after hostOps3 (W7 m c)
abbrev W9 : Dev nD → Valuation τ sig (Elt F) := fun c => StableHlo.after hostOps3_1 (W8 m c)
abbrev W10 : Dev nD → Valuation τ sig (Elt F) := fun c => StableHlo.after hostOps3_2 (W9 m c)
abbrev V10 : (c : Dev nD) → (b : Ref sig .tc) → Buf (Elt F) ((c : Thread nD τ).loc b) := fun c b => W10 m c b
def W11 (c : Dev nD) : Valuation τ sig (Elt F) :=
  Pipeline.withArrays spec3 c (W10 m c) fun w => (dat3 (V10 m) c).arrAt w cfg3.N
theorem W11_arr (c : Dev nD) (w : Fin cfg3.W) :
    W11 m c (Proc.devRef .tc (Pipeline.arrRef spec3 w)) = (dat3 (V10 m) c).arrAt w cfg3.N :=
  Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) :=
  Pipeline.withArrays_of_ne spec3 c _ _ b hb

def pdats : (p : Fin 4) → (c : Dev nD) → Dat τ (Elt F) Unit ℕ (UR sig nD τ) ℕ (Pipeline.pin (pcfgs (F := F)) adm p) c
  | ⟨0, _⟩ => dat0 (V2 m)
  | ⟨1, _⟩ => dat1 (V4 m)
  | ⟨2, _⟩ => dat2 (V6 m)
  | ⟨3, _⟩ => dat3 (V10 m)
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ T, owes (c : Thread nD τ) (0 : CellTallies nD τ sig Unit) T)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev exit (p : Fin 4) (W : Dev nD → Valuation τ sig (Elt F)) (c : Dev nD) : Valuation τ sig (Elt F) :=
  Pipeline.withArrays (cfgs p).spec c (W c) fun w => (pdats m p c).arrAt w (cfgs p).N

set_option backward.isDefEq.respectTransparency.types false in

def reg (p : Fin 4) (lf : Pipeline.LaunchFacts (nD := nD) (τ := τ) cfgs p) (W : Dev nD → Valuation τ sig (Elt F))
    (hq : ∀ c w, (pdats m p c).q w = fullShare)
    (hA : ∀ c w, (pdats m p c).A w = W c (Proc.devRef .tc (Pipeline.arrRef (cfgs p).spec w)))
    (howed : ∀ c t, (pdats m p c).owed t = 0) (hrec : ∀ c, (pdats m p c).recorded 0 = Set.univ)
    (hb : ∀ c, BodyObligation (pdats m p c) (defs₀ (F := F)) 𝒱₀ () Set.univ)
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (exit m p W c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%T, HO⟩; iexists T; isplitr; · ipureintro; exact fun _ _ => Or.inl (by rw [hrec c]; trivial)
      iexact HO
    isplitl [Hp]; · iexact Hp
    iexact Hrest
  hin c := by
    refine BIBase.Entails.trans ?_ (hi c); unfold Pipeline.ΦA
    iintro ⟨Hp, -, Hr⟩
    isplitl [Hr]; · iexact Hr
    iexact Hp
  hout c := by
    rw [Pipeline.ownSems0_none]
    refine (ho c).trans ?_; unfold Pipeline.ΦA
    iintro ⟨Hr, Hp⟩
    isplitl [Hp]; · iexact Hp
    isplitr; · iempintro
    iexact Hr
  hexit c := by
    have hF w : (pdats m p c).arrAt w (cfgs p).N = exit m p W c (Proc.devRef .tc (Pipeline.arrRef (cfgs p).spec w)) :=
      (Pipeline.withArrays_arr (cfgs p).spec lf.win.arr_inj c (W c) (fun w => (pdats m p c).arrAt w (cfgs p).N) w).symm
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => W c b) (fun b => exit m p W c b) ((pdats m p c).arrAt · (cfgs p).N) hF
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%T, -, HO⟩; iexists T; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg m 0 launch0 (W2 m) (fun _ _ => rfl) (fun _ _ => rfl) (fun _ _ => rfl) (fun _ => rfl) (body_obligation0 (V2 m)) (fun _ => .rfl) fun _ => .rfl),
    .host (hseg hostOps1 hostOps1_sub hostOps1_fresh (W3 m)),
    .region (reg m 1 launch1 (W4 m) (fun _ _ => rfl) (fun _ _ => rfl) (fun _ _ => rfl) (fun _ => rfl) (body_obligation1 (V4 m)) (fun _ => .rfl) fun _ => .rfl),
    .host (hseg hostOps2 hostOps2_sub hostOps2_fresh (W5 m)),
    .region (reg m 2 launch2 (W6 m) (fun _ _ => rfl) (fun _ _ => rfl) (fun _ _ => rfl) (fun _ => rfl) (body_obligation2 (V6 m)) (fun _ => .rfl) fun _ => .rfl),
    .host (hseg hostOps3 hostOps3_sub hostOps3_fresh (W7 m)),
    .host (hseg hostOps3_1 hostOps3_1_sub hostOps3_1_fresh (W8 m)),
    .host (hseg hostOps3_2 hostOps3_2_sub hostOps3_2_fresh (W9 m)),
    .region (reg m 3 launch3 (W10 m) (fun _ _ => rfl) (fun _ _ => rfl) (fun _ _ => rfl) (fun _ => rfl) (body_obligation3 (V10 m)) (hin3 (V10 m)) (hout3 (V10 m))) ]
theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Fr

end
-- ==== Proof.KI.Back.lean ====
import proofs.«403456_j6588479832097_3_alg».proof.Proof.KI.Run

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W4_of (c : Dev nD) (r : Ref sig .tc) (h : r ∉ hostOps1_W) : W4 m c (Proc.devRef .tc r) = W3 m c (Proc.devRef .tc r) :=
  StableHlo.after_of_writes_sub hostOps1 _ hostOps1_writes h
theorem W6_of (c : Dev nD) (r : Ref sig .tc) (h : r ∉ hostOps2_W) : W6 m c (Proc.devRef .tc r) = W5 m c (Proc.devRef .tc r) :=
  StableHlo.after_of_writes_sub hostOps2 _ hostOps2_writes h
theorem W8_of (c : Dev nD) (r : Ref sig .tc) (h : r ∉ hostOps3_W) : W8 m c (Proc.devRef .tc r) = W7 m c (Proc.devRef .tc r) :=
  StableHlo.after_of_writes_sub hostOps3 _ hostOps3_writes h
theorem W9_of (c : Dev nD) (r : Ref sig .tc) (h : r ∉ hostOps3_1_W) : W9 m c (Proc.devRef .tc r) = W8 m c (Proc.devRef .tc r) :=
  StableHlo.after_of_writes_sub hostOps3_1 _ hostOps3_1_writes h
theorem W10_of (c : Dev nD) (r : Ref sig .tc) (h : r ∉ hostOps3_2_W) : W10 m c (Proc.devRef .tc r) = W9 m c (Proc.devRef .tc r) :=
  StableHlo.after_of_writes_sub hostOps3_2 _ hostOps3_2_writes h

theorem kept {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (r : Ref sig .tc) (h : ∀ w, Pipeline.arrRef cfg.spec w = r → (cfg.win w).isOut = false) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    rw [Pipeline.withArrays_arr _ hinj, dat.arrAt_in w (h w rfl), hA]
  · exact Pipeline.withArrays_of_ne _ c _ _ r fun w e => hr ⟨w, e⟩

theorem back (c : Dev nD) (r : Ref sig .tc)
    (h : r ∉ hostOps0_W ∧ r ∉ hostOps0_1_W ∧ r ∉ hostOps1_W ∧ r ∉ hostOps2_W ∧ r ∉ hostOps3_W ∧ r ∉ hostOps3_1_W ∧ r ∉ hostOps3_2_W
      ∧ (∀ w, Pipeline.arrRef spec0 w = r → (cfg0.win w).isOut = false) ∧ (∀ w, Pipeline.arrRef spec1 w = r → (cfg1.win w).isOut = false)
      ∧ (∀ w, Pipeline.arrRef spec2 w = r → (cfg2.win w).isOut = false) ∧ ∀ w, Pipeline.arrRef spec3 w = r → (cfg3.win w).isOut = false) :
    W11 m c (Proc.devRef .tc r) = m ((c : Thread nD τ).loc r) := by
  obtain ⟨h0, h1, h3, h5, h7, h8, h9, e0, e1, e2, e3⟩ := h
  exact (kept (dat3 (V10 m) c) (W10 m c) launch3.win.arr_inj (A_eq3 (V10 m) c) r e3).trans <| (W10_of m c r h9).trans <| (W9_of m c r h8).trans <|
    (W8_of m c r h7).trans <| (kept (dat2 (V6 m) c) (W6 m c) launch2.win.arr_inj (A_eq2 (V6 m) c) r e2).trans <| (W6_of m c r h5).trans <|
    (kept (dat1 (V4 m) c) (W4 m c) launch1.win.arr_inj (A_eq1 (V4 m) c) r e1).trans <| (W4_of m c r h3).trans <|
    (kept (dat0 (V2 m) c) (W2 m c) launch0.win.arr_inj (A_eq0 (V2 m) c) r e0).trans <| (W2_of m c r h1).trans (W1_of m c r h0)

theorem args_kept (c : Dev nD) {mem : (ℓ : Loc nD τ sig) → Buf (Elt F) ℓ}
    (h : ∀ b ∈ Pipeline.ucRefs τ sig, mem ((c : Thread nD τ).1, b) = W11 m c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14) := by
  refine ⟨?_, ?_, ?_, ?_, ?_, ?_, ?_, ?_, ?_, ?_, ?_, ?_, ?_, ?_, ?_⟩ <;>
    exact (h _ (mem_uc _ (by decide))).trans (back m c _ (by decide))

theorem W11_main_v103 (c : Dev nD) : W11 m c (Proc.devRef .tc main_v103) = (dat3 (V10 m) c).arrAt 8 cfg3.N :=
  W11_arr m c 8

end Cert.KernelIdeal.Fr

end
-- ==== Proof.Spec.lean ====
import Mathlib.Data.Real.Basic
import Mathlib.Algebra.BigOperators.Ring.Finset
import Mathlib.Algebra.Order.BigOperators.Group.Finset
import Mathlib.Data.EReal.Basic
import Idealize.ShloMosaic.Lib.ValueIdx

noncomputable section

namespace Cert.Spec

open Idealize.ShloMosaic

abbrev NN : ℕ := 100000
abbrev EE : ℕ := 1700000
abbrev GG : ℕ := 64

def arr1 {A : ℕ} (f : Fin A → ℝ) : (⟨1, ![A]⟩ : Shape).Idx → EReal := fun i => ((f (i 0) : ℝ) : EReal)

def arr2 {A B : ℕ} (f : Fin A → Fin B → ℝ) : (⟨2, ![A, B]⟩ : Shape).Idx → EReal := fun i => ((f (i 0) (i 1) : ℝ) : EReal)

def wrapW (s : BitVec 32) : BitVec 32 := if s.toInt < 0 then s + 100000#32 else s

def rowOf (s : BitVec 32) : Fin NN := ⟨min (wrapW s).toInt.toNat 99999, Nat.lt_of_le_of_lt (Nat.min_le_right _ _) (by decide)⟩

section Layers

variable (src dst : Fin EE → BitVec 32) (dinv : Fin NN → ℝ)

def agg {D : ℕ} (h : Fin NN → Fin D → ℝ) (v : Fin NN) (k : Fin D) : ℝ :=
  ∑ e ∈ Finset.univ.filter (fun e : Fin EE => (dst e).toInt = (v.val : ℤ)), h (rowOf (src e)) k * (dinv (rowOf (src e)) * dinv v)

def mm {A K D : ℕ} (h : Fin A → Fin K → ℝ) (w : Fin K → Fin D → ℝ) (a : Fin A) (j : Fin D) : ℝ := ∑ k : Fin K, h a k * w k j

def biasRelu {A D : ℕ} (h : Fin A → Fin D → ℝ) (b : Fin D → ℝ) (a : Fin A) (j : Fin D) : ℝ := max (h a j + b j) 0

-- both sides are double finite sums of the same products, in the two orders
theorem mm_agg {K D : ℕ} (h : Fin NN → Fin K → ℝ) (w : Fin K → Fin D → ℝ) :
    mm (agg src dst dinv h) w = agg src dst dinv (mm h w) := by
  funext v j
  unfold mm agg
  simp only [Finset.sum_mul]
  rw [Finset.sum_comm]
  refine Finset.sum_congr rfl fun e _ => ?_
  refine Finset.sum_congr rfl fun k _ => ?_
  ring

-- the factor `dinv v` does not depend on the edge, so it moves inside the sum
theorem agg_split {D : ℕ} (h : Fin NN → Fin D → ℝ) (v : Fin NN) (k : Fin D) :
    (∑ e ∈ Finset.univ.filter (fun e : Fin EE => (dst e).toInt = (v.val : ℤ)), h (rowOf (src e)) k * dinv (rowOf (src e))) * dinv v
      = agg src dst dinv h v k := by
  unfold agg
  rw [Finset.sum_mul]
  refine Finset.sum_congr rfl fun e _ => ?_
  ring

end Layers

section Pool

variable (bat : Fin NN → BitVec 32)

def pool {D : ℕ} (h : Fin NN → Fin D → ℝ) (g : Fin GG) (j : Fin D) : ℝ :=
  ∑ i ∈ Finset.univ.filter (fun i : Fin NN => (bat i).toInt = (g.val : ℤ)), h i j

def cnt (g : Fin GG) : ℝ := ∑ i ∈ Finset.univ.filter (fun i : Fin NN => (bat i).toInt = (g.val : ℤ)), (1 : ℝ)

def meanPool {D : ℕ} (h : Fin NN → Fin D → ℝ) (g : Fin GG) (j : Fin D) : ℝ := pool bat h g j / max (cnt bat g) 1

theorem cnt_nonneg (g : Fin GG) : 0 ≤ cnt bat g := Finset.sum_nonneg fun _ _ => zero_le_one
theorem max_cnt_ne_zero (g : Fin GG) : max (cnt bat g) 1 ≠ 0 := ne_of_gt (lt_of_lt_of_le zero_lt_one (le_max_right _ _))

end Pool

def affine {A K D : ℕ} (h : Fin A → Fin K → ℝ) (w : Fin K → Fin D → ℝ) (b : Fin D → ℝ) (a : Fin A) (j : Fin D) : ℝ := mm h w a j + b j

section Whole

variable (src dst : Fin EE → BitVec 32) (dinv : Fin NN → ℝ) (bat : Fin NN → BitVec 32)
variable (x : Fin NN → Fin 128 → ℝ) (W1 : Fin 128 → Fin 50 → ℝ) (b1 : Fin 50 → ℝ) (W2 : Fin 50 → Fin 50 → ℝ) (b2 : Fin 50 → ℝ)
  (W3 : Fin 50 → Fin 50 → ℝ) (b3 : Fin 50 → ℝ) (W4 : Fin 50 → Fin 100 → ℝ) (b4 : Fin 100 → ℝ)
  (Wf1 : Fin 100 → Fin 50 → ℝ) (bf1 : Fin 50 → ℝ) (Wf2 : Fin 50 → Fin 2 → ℝ) (bf2 : Fin 2 → ℝ)

def hid3 : Fin NN → Fin 50 → ℝ :=
  biasRelu (agg src dst dinv (mm (biasRelu (agg src dst dinv (mm (biasRelu (agg src dst dinv (mm x W1)) b1) W2)) b2) W3)) b3

def headOf (h4 : Fin NN → Fin 100 → ℝ) : Fin GG → Fin 2 → ℝ := affine (affine (meanPool bat h4) Wf1 bf1) Wf2 bf2

def outR : Fin GG → Fin 2 → ℝ :=
  headOf bat Wf1 bf1 Wf2 bf2 (biasRelu (agg src dst dinv (mm (hid3 src dst dinv x W1 b1 W2 b2 W3 b3) W4)) b4)

def outK : Fin GG → Fin 2 → ℝ :=
  headOf bat Wf1 bf1 Wf2 bf2 (biasRelu (mm (agg src dst dinv (hid3 src dst dinv x W1 b1 W2 b2 W3 b3)) W4) b4)

-- the two programs differ only in applying `W4` before or after the last aggregation
theorem outK_eq_outR : outK src dst dinv bat x W1 b1 W2 b2 W3 b3 W4 b4 Wf1 bf1 Wf2 bf2 = outR src dst dinv bat x W1 b1 W2 b2 W3 b3 W4 b4 Wf1 bf1 Wf2 bf2 := by
  unfold outK outR
  rw [mm_agg]

end Whole

end Cert.Spec

end
-- ==== Proof.KI.ValCommon.lean ====
import proofs.«403456_j6588479832097_3_alg».proof.Proof.Spec
import Idealize.ShloMosaic.Lib.ValueLayout
import Idealize.ShloMosaic.Lib.StackMember

noncomputable section

namespace Cert.KernelIdeal.Fr

open Idealize.ShloMosaic Idealize.ShloMosaic.ValueIdx Idealize.ShloMosaic.StackMember Cert.Spec

theorem hz : (![0, 0] : Fin 2 → Nat) = fun _ => 0 := funext fun a => by fin_cases a <;> rfl

/-- The coercion of the reals into the extended reals is additive. -/
theorem coe_sum {ι : Type} (s : Finset ι) (f : ι → ℝ) : ((∑ k ∈ s, f k : ℝ) : EReal) = ∑ k ∈ s, ((f k : ℝ) : EReal) :=
  map_sum (⟨⟨Real.toEReal, EReal.coe_zero⟩, EReal.coe_add⟩ : ℝ →+ EReal) f s

/-- It is multiplicative too, so a product of tables of reals is the extended reals' sum of products. -/
theorem coe_mm {A K D : ℕ} (h : Fin A → Fin K → ℝ) (w : Fin K → Fin D → ℝ) (a : Fin A) (j : Fin D) :
    ∑ k : Fin K, ((h a k : ℝ) : EReal) * ((w k j : ℝ) : EReal) = ((mm h w a j : ℝ) : EReal) :=
  ((coe_sum _ _).trans (Finset.sum_congr rfl fun _ _ => EReal.coe_mul _ _)).symm

/-- And monotone, so it commutes with the clamp at zero. -/
theorem coe_biasRelu {A D : ℕ} (h : Fin A → Fin D → ℝ) (b : Fin D → ℝ) (a : Fin A) (j : Fin D) :
    max (((h a j : ℝ) : EReal) + ((b j : ℝ) : EReal)) 0 = ((biasRelu h b a j : ℝ) : EReal) :=
  (EReal.coe_strictMono.monotone.map_max (a := h a j + b j) (b := 0)).symm

/-- A plain product into the zero accumulator has no accumulator term, and its contraction has the one coordinate c. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant _ .f32 0x00000000#32) (ix2 a b) = ∑ c : Fin k, A (ix2 a c) * B (ix2 c b) :=
  (Ideal.matmul_constant_zero_apply _ prec A B _).trans
    ((Ideal.dotGeneral_apply _ prec .single A B _).symm.trans (dotGeneral_plain_apply prec A B a b))

/-- The same product after a bias row is added to the left operand and the sum clamped at zero. -/
theorem biasRelu_matmul_apply {m k n : Nat} (xa : FVec Ideal ⟨2, ![m, k]⟩ .f32) (xb : FVec Ideal ⟨2, ![1, k]⟩ .f32) (xc : FVec Ideal ⟨2, ![k, n]⟩ .f32)
    (h1 : (⟨2, ![m, k]⟩ : Shape).ShapeCasts ⟨2, ![m, k]⟩) (h2 : (⟨2, ![1, k]⟩ : Shape).ShapeCasts ⟨2, ![1, k]⟩)
    (h3 : (⟨2, ![1, k]⟩ : Shape).Broadcasts ⟨2, ![m, k]⟩) (hb : FTy.bits .bf16 < FTy.bits .f32) (p : Fin m) (q : Fin n) :
    FloatOps.matmul (DotDims.plain m k n) none
        (truncf .bf16 (maximumf (addf (shapeCast _ xa h1) (broadcastTo _ (shapeCast _ xb h2) h3)) (broadcast _ (Scalar.ofBits .f32 0x00000000#32))) hb)
        (truncf .bf16 xc hb) (constant _ .f32 0x00000000#32) (ix2 p q)
      = ∑ c : Fin k, max (xa (ix2 p c) + xb (ix2 (0 : Fin 1) c)) 0 * xc (ix2 c q) := by
  rw [matmul_plain_apply]
  refine Finset.sum_congr rfl fun c _ => ?_
  rw [truncf_apply, truncf_apply, maximumf_apply, addf_apply, broadcast_apply, shapeCast_self, shapeCast_self, broadcastTo_1b_ab_apply]
  show max _ (Ideal.ofBits .f32 0x00000000#32) * _ = _
  rw [Ideal.ofBits_zero_f32]

end Cert.KernelIdeal.Fr

end
-- ==== Proof.KI.Val1.lean ====
import proofs.«403456_j6588479832097_3_alg».proof.Proof.KI.Reg1
import proofs.«403456_j6588479832097_3_alg».proof.Proof.KI.ValCommon

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx Cert.Spec

theorem idx_facts1 : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem emb1_1 (t : Fin cfg1.N) (z : Fin 1) (k : Fin 50) : ((cfg1.win 1).blk t).view.emb (ix2 z k) = ix2 z k :=
  Shape.idx_ext₂ (win1_1.rect_emb_val_of_index_zero t (0 : Fin 2) (idx_facts1 t).1 _)
    (win1_1.rect_emb_val_of_index_zero t (1 : Fin 2) (idx_facts1 t).2.1 _)

theorem emb1_2 (t : Fin cfg1.N) (k : Fin 50) (q : Fin 50) : ((cfg1.win 2).blk t).view.emb (ix2 k q) = ix2 k q :=
  Shape.idx_ext₂ (win1_2.rect_emb_val_of_index_zero t (0 : Fin 2) (idx_facts1 t).2.2.1 _)
    (win1_2.rect_emb_val_of_index_zero t (1 : Fin 2) (idx_facts1 t).2.2.2.1 _)

theorem emb1_3 (t : Fin cfg1.N) (p : Fin 10000) (q : Fin 50) (hlt : t.val * 10000 + p.val < 100000) :
    ((cfg1.win 3).blk t).view.emb (ix2 p q) = ix2 (⟨t.val * 10000 + p.val, hlt⟩ : Fin 100000) q := by
  obtain ⟨-, -, -, -, e4, e5⟩ := idx_facts1 t
  exact Shape.idx_ext₂ (show win1_3.index t (0 : Fin 2) * 10000 + 1 * p.val = t.val * 10000 + p.val by omega)
    (show win1_3.index t (1 : Fin 2) * 50 + 1 * q.val = q.val by omega)

/-- Row r of the output is row r % 10000 of the block of point r / 10000. -/
theorem cover1 (i : S100000x50.Idx) : ∃ t : Fin cfg1.N, (cfg1.win 3).flush t = true ∧ i ∈ ((cfg1.win 3).blk t).view.set := by
  have hi := idx2_lt0 i
  let t : Fin cfg1.N := ⟨(i 0).val / 10000, by show _ < grid1.N; rw [N_1]; omega⟩
  have e : ((cfg1.win 3).blk t).view.emb (ix2 ⟨(i 0).val % 10000, Nat.mod_lt _ (by decide)⟩ (i 1)) = i :=
    (emb1_3 t _ _ (by show (i 0).val / 10000 * 10000 + (i 0).val % 10000 < 100000; omega)).trans
      (Shape.idx_ext₂ (Nat.div_add_mod' (i 0).val 10000) rfl)
  refine ⟨t, flush1_3 t, ?_⟩
  rw [← e]
  exact View.emb_mem_set _ _

/-- The input table is cut into blocks as the output is; then the coercion commutes with the clamp, the products and the sum. -/
theorem blk1_val (Aa : S100000x50.Idx → EReal) (Ab : S1x50.Idx → EReal) (Ac : S50x50.Idx → EReal)
    (h' : Fin 100000 → Fin 50 → ℝ) (b' : Fin 50 → ℝ) (w' : Fin 50 → Fin 50 → ℝ)
    (ha : Aa = arr2 h') (hb : Ab = arr2 (fun (_ : Fin 1) k => b' k)) (hc : Ac = arr2 w') (t : Fin cfg1.N) :
    (cfg1.win 3).cut (grid1.coords t) (out1_3 (((cfg1.win 0).blk t).view.read (Elt Ideal) Aa)
        (((cfg1.win 1).blk t).view.read (Elt Ideal) Ab) (((cfg1.win 2).blk t).view.read (Elt Ideal) Ac))
      = ((cfg1.win 3).blk t).view.read (Elt Ideal) (arr2 (mm (biasRelu h' b') w')) := by
  subst ha hb hc
  unfold out1_3
  rw [View.canon_unit_zero hz]
  simp only [View.ld_unit_zero (S := S10000x50) hz, View.ld_unit_zero (S := S1x50) hz, View.ld_unit_zero (S := S50x50) hz]
  have ht : t.val < 10 := lt_of_lt_of_eq (show t.val < grid1.N from t.isLt) N_1
  funext j
  obtain ⟨p, q, rfl⟩ : ∃ (p : Fin 10000) (q : Fin 50), j = ix2 p q := ⟨j 0, j 1, eq_ix2 j⟩
  have hlt : t.val * 10000 + p.val < 100000 := by have := p.isLt; omega
  have e0 : ∀ k, ((cfg1.win 0).blk t).view.emb (ix2 p k) = _ := fun k => emb1_3 t p k hlt
  unfold k1_pay1
  refine (biasRelu_matmul_apply _ _ _ _ _ _ bitsLt_bf16_f32 p q).trans ?_
  simp only [View.read_apply, cast_eq, e0, emb1_1 t, emb1_2 t, emb1_3 t p q hlt]
  exact (Finset.sum_congr rfl fun k _ => congrArg (· * _) (coe_biasRelu h' b' _ k)).trans (coe_mm (biasRelu h' b') w' _ q)

section Value
variable (V : (c : Dev nD) → (b : Ref sig .tc) → Buf (Elt Ideal) ((c : Thread nD τ).loc b))

/-- Block t of the output is block t of the product of the clamped table with the weights, and the blocks cover the output. -/
theorem final1 (c : Dev nD) (h' : Fin 100000 → Fin 50 → ℝ) (b' : Fin 50 → ℝ) (w' : Fin 50 → Fin 50 → ℝ)
    (hh : V c main_v34 = Cert.Spec.arr2 h') (hb : V c main_v35 = Cert.Spec.arr2 (fun (_ : Fin 1) k => b' k)) (hw : V c main_arg5 = Cert.Spec.arr2 w') :
    (dat1 V c).arrAt 3 cfg1.N = Cert.Spec.arr2 (Cert.Spec.mm (Cert.Spec.biasRelu h' b') w') :=
  (dat1 V c).arrAt_eq_of_cover 3 _ (fun t _ => by
    show (cfg1.win 3).cut (grid1.coords t) ((dat1 V c).after 3 t) = _
    rw [after1_3]
    exact blk1_val (V c main_v34) (V c main_v35) (V c main_arg5) h' b' w' hh hb hw t) cover1

end Value

end Cert.KernelIdeal.Fr

end
-- ==== Proof.KI.Val0.lean ====
import proofs.«403456_j6588479832097_3_alg».proof.Proof.KI.Reg0
import proofs.«403456_j6588479832097_3_alg».proof.Proof.KI.Val1
import proofs.«403456_j6588479832097_3_alg».proof.Proof.KI.ValCommon

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx Cert.Spec

theorem idx_facts0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

theorem emb0_0 (t : Fin cfg0.N) (p : Fin 10000) (k : Fin 128) (hlt : t.val * 10000 + p.val < 100000) :
    ((cfg0.win 0).blk t).view.emb (ix2 p k) = ix2 (⟨t.val * 10000 + p.val, hlt⟩ : Fin 100000) k := by
  obtain ⟨e0, e1, -⟩ := idx_facts0 t
  exact Shape.idx_ext₂ (show win0_0.index t (0 : Fin 2) * 10000 + 1 * p.val = t.val * 10000 + p.val by omega)
    (show win0_0.index t (1 : Fin 2) * 128 + 1 * k.val = k.val by omega)

theorem emb0_1 (t : Fin cfg0.N) (k : Fin 128) (q : Fin 50) : ((cfg0.win 1).blk t).view.emb (ix2 k q) = ix2 k q :=
  Shape.idx_ext₂ (win0_1.rect_emb_val_of_index_zero t (0 : Fin 2) (idx_facts0 t).2.2.1 _)
    (win0_1.rect_emb_val_of_index_zero t (1 : Fin 2) (idx_facts0 t).2.2.2 _)

/-- The output is cut into blocks as region 1's is, so that region's placement and cover serve here. -/
theorem blk0_val (A0 : S100000x128.Idx → EReal) (A1 : S128x50.Idx → EReal) (x' : Fin 100000 → Fin 128 → ℝ) (w' : Fin 128 → Fin 50 → ℝ)
    (h0 : A0 = arr2 x') (h1 : A1 = arr2 w') (t : Fin cfg0.N) (p : Fin 10000) (q : Fin 50) (hlt : t.val * 10000 + p.val < 100000) :
    ∑ k : Fin 128, A0 (((cfg0.win 0).blk t).view.emb (ix2 p k)) * A1 (((cfg0.win 1).blk t).view.emb (ix2 k q))
      = arr2 (mm x' w') (((cfg0.win 2).blk t).view.emb (ix2 p q)) := by
  subst h0 h1
  rw [show ((cfg0.win 2).blk t).view.emb (ix2 p q) = _ from emb1_3 t p q hlt]
  simp only [emb0_0 t p _ hlt, emb0_1 t]
  exact coe_mm x' w' _ q

section Value
variable (V : (c : Dev nD) → (b : Ref sig .tc) → Buf (Elt Ideal) ((c : Thread nD τ).loc b))

/-- Block t of the output is block t of the product, and the blocks cover the output. -/
theorem final0 (c : Dev nD) (x' : Fin 100000 → Fin 128 → ℝ) (w' : Fin 128 → Fin 50 → ℝ)
    (hx : V c main_arg0 = Cert.Spec.arr2 x') (hw : V c main_arg3 = Cert.Spec.arr2 w') :
    (dat0 V c).arrAt 2 cfg0.N = Cert.Spec.arr2 (Cert.Spec.mm x' w') :=
  (dat0 V c).arrAt_eq_of_cover 2 _ (fun t _ => by
    show (cfg0.win 2).cut (grid0.coords t) ((dat0 V c).after 2 t) = _
    rw [after0_2]
    unfold out0_2
    rw [View.canon_unit_zero hz]
    simp only [View.ld_unit_zero (S := S10000x128) hz, View.ld_unit_zero (S := S128x50) hz]
    have ht : t.val < 10 := lt_of_lt_of_eq (show t.val < grid0.N from t.isLt) N_0
    funext j
    obtain ⟨p, q, rfl⟩ : ∃ (p : Fin 10000) (q : Fin 50), j = ix2 p q := ⟨j 0, j 1, eq_ix2 j⟩
    have hlt : t.val * 10000 + p.val < 100000 := by have := p.isLt; omega
    unfold k0_pay1
    exact (matmul_plain_apply none (truncf .bf16 _ bitsLt_bf16_f32) (truncf .bf16 _ bitsLt_bf16_f32) p q).trans
      (blk0_val (V c main_arg0) (V c main_arg3) x' w' hx hw t p q hlt)) cover1

end Value

end Cert.KernelIdeal.Fr

end
-- ==== Proof.KI.Val2.lean ====
import proofs.«403456_j6588479832097_3_alg».proof.Proof.KI.Reg2
import proofs.«403456_j6588479832097_3_alg».proof.Proof.KI.Val1

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx Cert.Spec

section Value
variable (V : (c : Dev nD) → (b : Ref sig .tc) → Buf (Elt Ideal) ((c : Thread nD τ).loc b))

/-- Region 2 is region 1's computation on other tables, its blocks lying the same way: region 1's block value and cover serve. -/
theorem final2 (c : Dev nD) (h' : Fin 100000 → Fin 50 → ℝ) (b' : Fin 50 → ℝ) (w' : Fin 50 → Fin 50 → ℝ)
    (hh : V c main_v55 = Cert.Spec.arr2 h') (hb : V c main_v56 = Cert.Spec.arr2 (fun (_ : Fin 1) k => b' k)) (hw : V c main_arg7 = Cert.Spec.arr2 w') :
    (dat2 V c).arrAt 3 cfg2.N = Cert.Spec.arr2 (Cert.Spec.mm (Cert.Spec.biasRelu h' b') w') :=
  (dat2 V c).arrAt_eq_of_cover 3 _ (fun t _ => by
    show (cfg2.win 3).cut (grid2.coords t) ((dat2 V c).after 3 t) = _
    rw [after2_3]
    exact blk1_val (V c main_v55) (V c main_v56) (V c main_arg7) h' b' w' hh hb hw t) cover1

end Value

end Cert.KernelIdeal.Fr

end
-- ==== Proof.KI.Pay3.lean ====
import proofs.«403456_j6588479832097_3_alg».proof.Proof.Gen.KernelIdeal.Skeleton
import proofs.«403456_j6588479832097_3_alg».proof.Proof.Spec
import proofs.«403456_j6588479832097_3_alg».proof.Proof.KI.ValCommon
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.KernelVsHost
import Idealize.ShloMosaic.Lib.IdealHost
import Idealize.ShloMosaic.PureOps.Ideal.Laws

noncomputable section

namespace Cert.KernelIdeal.Val

open Idealize.ShloMosaic Idealize.ShloMosaic.ValueIdx Cert.KernelIdeal Cert.KernelIdeal.Gen Cert.Spec
open scoped BigOperators

theorem pay_ofBits_zero : Ideal.ofBits .f32 0x00000000#32 = ((0 : ℝ) : EReal) := by
  rw [Ideal.ofBits_zero_f32]; rfl

theorem pay_ofBits_one : Ideal.ofBits .f32 0x3F800000#32 = ((1 : ℝ) : EReal) := by
  rw [Ideal.ofBits_one_f32]; rfl

/-- The coercion of the reals into the extended reals is monotone, so it commutes with the maximum. -/
theorem pay_coe_max (a b : ℝ) : ((max a b : ℝ) : EReal) = max ((a : ℝ) : EReal) ((b : ℝ) : EReal) :=
  EReal.coe_strictMono.monotone.map_max

theorem pay_zero {A B : ℕ} (h : (⟨2, ![A, B]⟩ : Shape).ShapeCasts ⟨2, ![A, B]⟩) :
    shapeCast ⟨2, ![A, B]⟩ (broadcast ⟨2, ![A, B]⟩ (Scalar.ofBits (F := Ideal) .f32 0x00000000#32)) h
      = arr2 (fun (_ : Fin A) (_ : Fin B) => (0 : ℝ)) := by
  rw [shapeCast_self]
  exact funext fun _ => pay_ofBits_zero

theorem pay3_eq : k3_pay3 (F := Ideal) = arr2 (fun (_ : Fin 64) (_ : Fin 100) => (0 : ℝ)) := pay_zero (A := 64) (B := 100) _

theorem pay4_eq : k3_pay4 (F := Ideal) = arr2 (fun (_ : Fin 64) (_ : Fin 1) => (0 : ℝ)) := pay_zero (A := 64) (B := 1) _

theorem pay_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The table compares row `r`'s word with the word of `g`; below 2³¹ equal words are equal signed readings. -/
theorem pay5_apply (v15 : Vec Ideal S5000x1 .i32) (r : Fin 5000) (g : Fin 64) :
    k3_pay5 (F := Ideal) v15 (ix2 r g) = (((if (v15 (ix2 r 0)).toInt = (g.val : ℤ) then (1 : ℝ) else 0) : ℝ) : EReal) := by
  unfold k3_pay5
  rw [shapeCast_self]
  have hi : iota .tc S5000x64 32 [1] iota_S5000x64_d1_w32 (ix2 r g) = BitVec.ofNat 32 g.val :=
    iota_single_apply .tc S5000x64 32 1 iota_S5000x64_d1_w32 (ix2 r g)
  show ((((IntOp.cmpi .eq (broadcastTo _ _ _ (ix2 r g)) (iota _ _ _ _ _ (ix2 r g))).setWidth 32).toInt : ℝ) : EReal) = _
  rw [pay_broadcastTo_a1_ab_apply, hi, toInt_setWidth_bit]
  have hg := StableHlo.Predicate.toInt_ofNat_small g.val (by have := g.isLt; omega)
  by_cases h : v15 (ix2 r 0) = BitVec.ofNat 32 g.val
  · rw [if_pos (by rw [h, hg]), StableHlo.Predicate.cmpi_eq_iff.2 h]
    norm_num
  · rw [if_neg (fun e => h (BitVec.eq_of_toInt_eq (e.trans hg.symm))),
      ValueIdx.eq_zero_of_ne_one (fun e => h (StableHlo.Predicate.cmpi_eq_iff.1 e))]
    norm_num

/-- Into a zero accumulator a product contracting one axis of extent `K` is, at an entry, the sum over `K` of the operands' products. -/
theorem pay_mm_apply {sl sr so : Shape} {φ₁ φ₂ : FTy} (D : DotDims sl sr so) (K : ℕ) (hr : D.contr.rank = 1)
    (hs : D.contr.size ⟨0, by omega⟩ = K) (prec : Option ContractPrecision) (x : FVec Ideal sl φ₁) (y : FVec Ideal sr φ₂)
    (j : so.Idx) (L : Fin K → sl.Idx) (R : Fin K → sr.Idx)
    (hL : ∀ s a, (D.lhsIdx j s a).val = (L (contrEquiv1 D K hr hs s) a).val)
    (hR : ∀ s a, (D.rhsIdx j s a).val = (R (contrEquiv1 D K hr hs s) a).val) :
    matmul D prec x y (constant so .f32 0x00000000#32) j = ∑ k : Fin K, x (L k) * y (R k) := by
  refine (Ideal.matmul_constant_zero_apply D prec x y j).trans ?_
  rw [← Equiv.sum_comp (contrEquiv1 D K hr hs)]
  refine Finset.sum_congr rfl fun s _ => ?_
  rw [show D.lhsIdx j s = L (contrEquiv1 D K hr hs s) from funext fun a => Fin.ext (hL s a),
    show D.rhsIdx j s = R (contrEquiv1 D K hr hs s) from funext fun a => Fin.ext (hR s a)]

/-- A product of real tables plus a bias row, formed in the extended reals, is the real affine map. -/
theorem pay_affine_eq {A K B : ℕ} (hb : (⟨2, ![1, B]⟩ : Shape).Broadcasts ⟨2, ![A, B]⟩) (m : Fin A → Fin K → ℝ) (W : Fin K → Fin B → ℝ) (b : Fin B → ℝ) :
    addf (matmul (F := Ideal) (DotDims.plain A K B) none (truncf (F := Ideal) .bf16 (arr2 m) bitsLt_bf16_f32) (truncf (F := Ideal) .bf16 (arr2 W) bitsLt_bf16_f32)
        (constant (F := Ideal) ⟨2, ![A, B]⟩ .f32 0x00000000#32)) (broadcastTo ⟨2, ![A, B]⟩ (arr2 (fun (_ : Fin 1) j => b j)) hb)
      = arr2 (affine m W b) := by
  funext i
  obtain ⟨p, q, rfl⟩ : ∃ (p : Fin A) (q : Fin B), i = ix2 p q := ⟨i 0, i 1, eq_ix2 i⟩
  show FloatOps.matmul (DotDims.plain A K B) none _ _ _ (ix2 p q) + broadcastTo _ _ hb (ix2 p q) = _
  rw [Fr.matmul_plain_apply, broadcastTo_1b_ab_apply]
  exact (congrArg (· + ((b q : ℝ) : EReal)) (Fr.coe_mm m W p q)).trans (EReal.coe_add _ _).symm

/-- The transposed one-hot table times a real table adds, to each graph, the rows whose word is that graph. -/
theorem pay_pool_eq {B : ℕ} (D : DotDims S5000x64 ⟨2, ![5000, B]⟩ ⟨2, ![64, B]⟩) (hr : D.contr.rank = 1)
    (hs : D.contr.size ⟨0, by omega⟩ = 5000)
    (hL : ∀ (g : Fin 64) (j : Fin B) s a, (D.lhsIdx (ix2 g j) s a).val = (ix2 (contrEquiv1 D 5000 hr hs s) g a).val)
    (hR : ∀ (g : Fin 64) (j : Fin B) s a, (D.rhsIdx (ix2 g j) s a).val = (ix2 (contrEquiv1 D 5000 hr hs s) j a).val)
    (v15 : Vec Ideal S5000x1 .i32) (acc : Fin 64 → Fin B → ℝ) (y : Fin 5000 → Fin B → ℝ) :
    addf (F := Ideal) (arr2 acc) (matmul (F := Ideal) (φ₂ := .f32) D (some .fp32) (k3_pay5 (F := Ideal) v15) (arr2 y)
        (constant (F := Ideal) ⟨2, ![64, B]⟩ .f32 0x00000000#32))
      = arr2 (fun g j => acc g j + ∑ r : Fin 5000, (if (v15 (ix2 r 0)).toInt = (g.val : ℤ) then (1 : ℝ) else 0) * y r j) := by
  funext i
  obtain ⟨g, j, rfl⟩ : ∃ (g : Fin 64) (j : Fin B), i = ix2 g j := ⟨i 0, i 1, eq_ix2 i⟩
  show _ + matmul D _ _ _ _ (ix2 g j) = _
  rw [pay_mm_apply D 5000 hr hs _ _ _ (ix2 g j) (fun k => ix2 k g) (fun k => ix2 k j) (hL g j) (hR g j)]
  simp only [pay5_apply]
  exact (congrArg (((acc g j : ℝ) : EReal) + ·) (Fr.coe_mm (fun g r => if (v15 (ix2 r 0)).toInt = (g.val : ℤ) then (1 : ℝ) else 0) y g j)).trans
    (EReal.coe_add _ _).symm

abbrev payD6 := dot_S5000x64_S5000x100_S64x100_0_0_1_1_n_n
abbrev payD7 := dot_S5000x64_S5000x1_S64x1_0_0_1_1_n_n

theorem pay17_eq (v15 : Vec Ideal S5000x1 .i32) (c' : Fin 64 → Fin 1 → ℝ) :
    k3_pay1 (F := Ideal) (k3_pay7 (F := Ideal) v15 (arr2 c'))
      = arr2 (fun g (z : Fin 1) => c' g z + ∑ r : Fin 5000, (if (v15 (ix2 r 0)).toInt = (g.val : ℤ) then (1 : ℝ) else 0)) := by
  unfold k3_pay1
  rw [shapeCast_self]
  show addf _ (matmul payD7 _ _ (broadcast S5000x1 (Ideal.ofBits .f32 0x3F800000#32)) _) = _
  rw [show broadcast S5000x1 (Ideal.ofBits .f32 0x3F800000#32) = arr2 (fun (_ : Fin 5000) (_ : Fin 1) => (1 : ℝ)) from
      funext fun _ => pay_ofBits_one,
    pay_pool_eq payD7 rfl rfl
      (fun g j s a => match a with | ⟨0, _⟩ => payD7.lhsIdx_val_of_single rfl _ s | ⟨1, _⟩ => rfl)
      (fun g j s a => match a with | ⟨0, _⟩ => payD7.rhsIdx_val_of_single rfl _ s | ⟨1, _⟩ => rfl)]
  simp only [mul_one]

/-- Clamping a real table below at zero, in the extended reals, is the real clamp. -/
theorem pay_relu_eq {A B : ℕ} (h : Fin A → Fin B → ℝ) :
    maximumf (F := Ideal) (arr2 h) (broadcast ⟨2, ![A, B]⟩ (Scalar.ofBits (F := Ideal) .f32 0x00000000#32)) = arr2 (fun a j => max (h a j) 0) :=
  funext fun _ => (congrArg (max _) pay_ofBits_zero).trans (pay_coe_max _ _).symm

theorem pay6_eq (v15 : Vec Ideal S5000x1 .i32) (a' : Fin 5000 → Fin 50 → ℝ) (W4' : Fin 50 → Fin 100 → ℝ) (b4' : Fin 100 → ℝ)
    (s' : Fin 64 → Fin 100 → ℝ) :
    k3_pay6 (F := Ideal) (arr2 a') (arr2 W4') (arr2 (fun (_ : Fin 1) j => b4' j)) v15 (arr2 s')
      = arr2 (fun g j => s' g j + ∑ r : Fin 5000, (if (v15 (ix2 r 0)).toInt = (g.val : ℤ) then (1 : ℝ) else 0) * biasRelu (mm a' W4') b4' r j) := by
  unfold k3_pay6
  rw [shapeCast_self, shapeCast_self]
  show shapeCast _ (addf _ (matmul payD6 _ _ (maximumf (addf (matmul (DotDims.plain 5000 50 100) none _ _ _) _) _) _)) _ = _
  rw [shapeCast_self, pay_affine_eq, pay_relu_eq, pay_pool_eq payD6 rfl rfl
    (fun g j s a => match a with | ⟨0, _⟩ => payD6.lhsIdx_val_of_single rfl _ s | ⟨1, _⟩ => rfl)
    (fun g j s a => match a with | ⟨0, _⟩ => payD6.rhsIdx_val_of_single rfl _ s | ⟨1, _⟩ => rfl)]
  rfl

theorem pay2_eq (s' : Fin 64 → Fin 100 → ℝ) (c' : Fin 64 → Fin 1 → ℝ) (Wf1' : Fin 100 → Fin 50 → ℝ) (bf1' : Fin 50 → ℝ)
    (Wf2' : Fin 50 → Fin 2 → ℝ) (bf2' : Fin 2 → ℝ) :
    k3_pay2 (F := Ideal) (arr2 s') (arr2 c') (arr2 Wf1') (arr2 (fun (_ : Fin 1) j => bf1' j)) (arr2 Wf2')
        (arr2 (fun (_ : Fin 1) j => bf2' j))
      = arr2 (affine (affine (fun g j => s' g j / max (c' g 0) 1) Wf1' bf1') Wf2' bf2') := by
  have hmean : divf (arr2 s') (broadcastTo S64x100 (maximumf (F := Ideal) (arr2 c')
        (broadcast S64x1 (Scalar.ofBits (F := Ideal) .f32 0x3F800000#32))) broadcasts_S64x1_S64x100)
      = arr2 (fun g j => s' g j / max (c' g 0) 1) := by
    funext i
    obtain ⟨g, j, rfl⟩ : ∃ (g : Fin 64) (j : Fin 100), i = ix2 g j := ⟨i 0, i 1, eq_ix2 i⟩
    show Ideal.div _ (broadcastTo _ _ _ (ix2 g j)) = _
    rw [pay_broadcastTo_a1_ab_apply]
    show Ideal.div ((s' g j : ℝ) : EReal) (max ((c' g 0 : ℝ) : EReal) (Ideal.ofBits .f32 0x3F800000#32))
      = ((s' g j / max (c' g 0) 1 : ℝ) : EReal)
    rw [pay_ofBits_one, ← pay_coe_max,
      Ideal.div_coe (ne_of_gt (lt_of_lt_of_le zero_lt_one (le_max_right (c' g 0) 1))), ← EReal.coe_mul,
      div_eq_mul_one_div (s' g j) (max (c' g 0) 1)]
  unfold k3_pay2
  rw [shapeCast_self, shapeCast_self]
  show addf (matmul (F := Ideal) (DotDims.plain 64 50 2) none (truncf (F := Ideal) .bf16
    (addf (matmul (F := Ideal) (DotDims.plain 64 100 50) none _ _ _) _) _) _ _) _ = _
  rw [hmean, pay_affine_eq, pay_affine_eq]

end Cert.KernelIdeal.Val

end
-- ==== Proof.KI.Val3.lean ====
import proofs.«403456_j6588479832097_3_alg».proof.Proof.KI.Reg3
import proofs.«403456_j6588479832097_3_alg».proof.Proof.Spec
import proofs.«403456_j6588479832097_3_alg».proof.Proof.KI.Pay3
import Idealize.ShloMosaic.Lib.Pipeline.Value
import Idealize.ShloMosaic.Lib.ValueIdx
import Mathlib.Data.Fintype.BigOperators
import Mathlib.Logic.Equiv.Fin.Basic

noncomputable section

namespace Cert.KernelIdeal.Fr

open Cert.KernelIdeal Cert.KernelIdeal.Gen Cert.KernelIdeal.Val Cert.Spec Idealize.ShloMosaic Idealize.ShloMosaic.TcCoe Idealize.SL.Sem
open Idealize.ShloMosaic.Pipeline (Dat)
open Idealize.ShloMosaic.ValueIdx

section PureSums
open scoped BigOperators

/-- Row `r` of tile `n`: the tiles are runs of 5000 consecutive rows. -/
def row3 (n : ℕ) (r : Fin 5000) : Fin 100000 := ⟨(n * 5000 + r.val) % 100000, Nat.mod_lt _ (by decide)⟩

/-- The 100000 rows are the rows of the 20 tiles. -/
theorem sum_rows3 (f : Fin 100000 → ℝ) : ∑ i : Fin 100000, f i = ∑ t ∈ Finset.range 20, ∑ r : Fin 5000, f (row3 t r) := by
  rw [← Equiv.sum_comp (finProdFinEquiv : Fin 20 × Fin 5000 ≃ Fin 100000) f, Fintype.sum_prod_type, Finset.sum_range]
  refine Finset.sum_congr rfl fun t _ => Finset.sum_congr rfl fun r _ => congrArg f (Fin.ext ?_)
  show r.val + 5000 * t.val = (t.val * 5000 + r.val) % 100000
  have := t.isLt; have := r.isLt; omega

def ind3 (w : BitVec 32) (g : Fin 64) : ℝ := if w.toInt = (g.val : ℤ) then 1 else 0

variable (bat : Fin 100000 → BitVec 32)

/-- Tile `n`'s contribution to graph `g`'s sums, -/
def tileS3 {D : ℕ} (h : Fin 100000 → Fin D → ℝ) (n : ℕ) (g : Fin 64) (j : Fin D) : ℝ :=
  ∑ r : Fin 5000, ind3 (bat (row3 n r)) g * h (row3 n r) j
/-- and to its count. -/
def tileC3 (n : ℕ) (g : Fin 64) : ℝ := ∑ r : Fin 5000, ind3 (bat (row3 n r)) g

theorem accS3_last {D : ℕ} (h : Fin 100000 → Fin D → ℝ) (g : Fin 64) (j : Fin D) :
    ∑ n ∈ Finset.range 20, tileS3 bat h n g j = Spec.pool bat h g j := by
  unfold Spec.pool
  rw [Finset.sum_filter, sum_rows3]
  refine Finset.sum_congr rfl fun t _ => Finset.sum_congr rfl fun r _ => ?_
  unfold ind3
  rw [ite_mul, one_mul, zero_mul]

theorem accC3_last (g : Fin 64) : ∑ n ∈ Finset.range 20, tileC3 bat n g = cnt bat g := by
  unfold cnt
  rw [Finset.sum_filter, sum_rows3]
  rfl

end PureSums

theorem idxT3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

theorem idx03 : ∀ (t : Fin cfg3.N) (a : Fin 2), win3_2.index t a = 0 ∧ win3_3.index t a = 0 ∧ win3_4.index t a = 0
    ∧ win3_5.index t a = 0 ∧ win3_6.index t a = 0 ∧ win3_7.index t a = 0 ∧ win3_8.index t a = 0 :=
  (by decide +kernel : ∀ (t : Fin grid3.N) (a : Fin 2), _)

theorem lt20_3 (t : Fin cfg3.N) : t.val < 20 := lt_of_lt_of_eq (show t.val < grid3.N from t.isLt) N_3

theorem emb3_0 (t : Fin cfg3.N) (p : Fin 5000) (k : Fin 50) :
    ((cfg3.win 0).blk t).view.emb (ix2 p k) = ix2 (row3 t.val p) k := by
  obtain ⟨e0, e1, -⟩ := idxT3 t
  have := lt20_3 t; have := p.isLt
  funext a; apply Fin.ext
  match a with
  | ⟨0, _⟩ => show win3_0.index t (0 : Fin 2) * 5000 + 1 * p.val = (t.val * 5000 + p.val) % 100000; omega
  | ⟨1, _⟩ => show win3_0.index t (1 : Fin 2) * 50 + 1 * k.val = k.val; omega

theorem emb3_1 (t : Fin cfg3.N) (p : Fin 5000) (z : Fin 1) :
    ((cfg3.win 1).blk t).view.emb (ix2 p z) = ix2 (row3 t.val p) z := by
  obtain ⟨-, -, e0, e1⟩ := idxT3 t
  have := lt20_3 t; have := p.isLt
  funext a; apply Fin.ext
  match a with
  | ⟨0, _⟩ => show win3_1.index t (0 : Fin 2) * 5000 + 1 * p.val = (t.val * 5000 + p.val) % 100000; omega
  | ⟨1, _⟩ => show win3_1.index t (1 : Fin 2) * 1 + 1 * z.val = z.val; omega

/-- The output's one block is its whole array. -/
theorem emb3_8 (t : Fin cfg3.N) (i : S64x2.Idx) : ((cfg3.win 8).blk t).view.emb i = i :=
  funext fun a => Fin.ext (win3_8.rect_emb_val_of_index_zero t a (idx03 t a).2.2.2.2.2.2 i)

theorem cover3 (i : S64x2.Idx) : ∃ t : Fin cfg3.N, (cfg3.win 8).flush t = true ∧ i ∈ ((cfg3.win 8).blk t).view.set :=
  ⟨⟨19, by show _ < grid3.N; rw [N_3]; omega⟩, (flush3_8 _).mpr rfl, Finset.mem_map.mpr ⟨i, Finset.mem_univ _, emb3_8 _ i⟩⟩

section Value
variable (V : (c : Dev nD) → (b : Ref sig .tc) → Buf (Elt Ideal) ((c : Thread nD τ).loc b))

/-- The graph words, row by row. -/
def bat3 (c : Dev nD) : Fin 100000 → BitVec 32 := fun i => (V c main_v102) (ix2 i 0)

theorem iblk3_0_eq (c : Dev nD) (a' : Fin 100000 → Fin 50 → ℝ) (h0 : V c main_v98 = arr2 a') (t : Fin cfg3.N) :
    (iblk3 V c 0 t : Vec Ideal S5000x50 .f32) = arr2 (fun (p : Fin 5000) (k : Fin 50) => a' (row3 t.val p) k) := by
  funext j
  obtain ⟨p, k, rfl⟩ : ∃ (p : Fin 5000) (k : Fin 50), j = ix2 p k := ⟨j 0, j 1, eq_ix2 j⟩
  show (V c main_v98) (((cfg3.win 0).blk t).view.emb (ix2 p k)) = _
  rw [h0, emb3_0 t p k]
  rfl

theorem iblk3_1_eq (c : Dev nD) (t : Fin cfg3.N) :
    (iblk3 V c 1 t : Vec Ideal S5000x1 .i32) = fun i => bat3 V c (row3 t.val (i 0)) := by
  funext j
  obtain ⟨r, z, rfl⟩ : ∃ (r : Fin 5000) (z : Fin 1), j = ix2 r z := ⟨j 0, j 1, eq_ix2 j⟩
  show (V c main_v102) (((cfg3.win 1).blk t).view.emb (ix2 r z)) = (V c main_v102) (ix2 (row3 t.val r) 0)
  rw [emb3_1 t r z, Fin.fin_one_eq_zero z]

/-- The other inputs' one block is their whole array, at every point. -/
theorem iblk3_2_eq (c : Dev nD) (t : Fin cfg3.N) : (iblk3 V c 2 t : Vec Ideal S50x100 .f32) = V c main_arg9 :=
  funext fun j => show (V c main_arg9) (((cfg3.win 2).blk t).view.emb j) = _ from
    congrArg _ (funext fun a => Fin.ext (win3_2.rect_emb_val_of_index_zero t a (idx03 t a).1 j))
theorem iblk3_3_eq (c : Dev nD) (t : Fin cfg3.N) : (iblk3 V c 3 t : Vec Ideal S1x100 .f32) = V c main_v99 :=
  funext fun j => show (V c main_v99) (((cfg3.win 3).blk t).view.emb j) = _ from
    congrArg _ (funext fun a => Fin.ext (win3_3.rect_emb_val_of_index_zero t a (idx03 t a).2.1 j))
theorem iblk3_4_eq (c : Dev nD) (t : Fin cfg3.N) : (iblk3 V c 4 t : Vec Ideal S100x50 .f32) = V c main_arg11 :=
  funext fun j => show (V c main_arg11) (((cfg3.win 4).blk t).view.emb j) = _ from
    congrArg _ (funext fun a => Fin.ext (win3_4.rect_emb_val_of_index_zero t a (idx03 t a).2.2.1 j))
theorem iblk3_5_eq (c : Dev nD) (t : Fin cfg3.N) : (iblk3 V c 5 t : Vec Ideal S1x50 .f32) = V c main_v100 :=
  funext fun j => show (V c main_v100) (((cfg3.win 5).blk t).view.emb j) = _ from
    congrArg _ (funext fun a => Fin.ext (win3_5.rect_emb_val_of_index_zero t a (idx03 t a).2.2.2.1 j))
theorem iblk3_6_eq (c : Dev nD) (t : Fin cfg3.N) : (iblk3 V c 6 t : Vec Ideal S50x2 .f32) = V c main_arg13 :=
  funext fun j => show (V c main_arg13) (((cfg3.win 6).blk t).view.emb j) = _ from
    congrArg _ (funext fun a => Fin.ext (win3_6.rect_emb_val_of_index_zero t a (idx03 t a).2.2.2.2.1 j))
theorem iblk3_7_eq (c : Dev nD) (t : Fin cfg3.N) : (iblk3 V c 7 t : Vec Ideal S1x2 .f32) = V c main_v101 :=
  funext fun j => show (V c main_v101) (((cfg3.win 7).blk t).view.emb j) = _ from
    congrArg _ (funext fun a => Fin.ext (win3_7.rect_emb_val_of_index_zero t a (idx03 t a).2.2.2.2.2.1 j))

variable (c : Dev nD) (a' : Fin 100000 → Fin 50 → ℝ) (W4' : Fin 50 → Fin 100 → ℝ) (b4' : Fin 100 → ℝ) (Wf1' : Fin 100 → Fin 50 → ℝ) (bf1' : Fin 50 → ℝ) (Wf2' : Fin 50 → Fin 2 → ℝ) (bf2' : Fin 2 → ℝ)
  (h0 : V c main_v98 = arr2 a') (h2 : V c main_arg9 = arr2 W4') (h3 : V c main_v99 = arr2 (fun (_ : Fin 1) j => b4' j)) (h4 : V c main_arg11 = arr2 Wf1') (h5 : V c main_v100 = arr2 (fun (_ : Fin 1) j => bf1' j)) (h6 : V c main_arg13 = arr2 Wf2') (h7 : V c main_v101 = arr2 (fun (_ : Fin 1) j => bf2' j))

include h0 h2 h3

/-- After point `n` the accumulators hold the sums and the counts over the tiles up to `n`: by induction on the point. -/
theorem acc3_inv :
    ∀ (n : ℕ) (hn : n < cfg3.N),
      (outsAt3 V c n hn).2.1 = arr2 (fun g j => ∑ k ∈ Finset.range (n + 1), tileS3 (bat3 V c) (biasRelu (mm a' W4') b4') k g j)
      ∧ (outsAt3 V c n hn).2.2 = arr2 (fun g (_ : Fin 1) => ∑ k ∈ Finset.range (n + 1), tileC3 (bat3 V c) k g) := by
  intro n
  induction n with
  | zero =>
    intro hn
    constructor
    · show k3_pay6 _ _ _ _ _ = _
      rw [iblk3_0_eq V c a' h0, iblk3_2_eq, h2, iblk3_3_eq, h3, iblk3_1_eq, pay3_eq, pay6_eq]
      exact congrArg arr2 (funext fun g => funext fun j =>
        (zero_add _).trans (Finset.sum_range_one (fun k => tileS3 (bat3 V c) (biasRelu (mm a' W4') b4') k g j)).symm)
    · show k3_pay1 (k3_pay7 _ _) = _
      rw [iblk3_1_eq, pay4_eq, pay17_eq]
      exact congrArg arr2 (funext fun g => funext fun _ =>
        (zero_add _).trans (Finset.sum_range_one (fun k => tileC3 (bat3 V c) k g)).symm)
  | succ n ih =>
    intro hn
    obtain ⟨ih1, ih2⟩ := ih (Nat.lt_of_succ_lt hn)
    constructor
    · show k3_pay6 _ _ _ _ (outsAt3 V c n (Nat.lt_of_succ_lt hn)).2.1 = _
      rw [ih1, iblk3_0_eq V c a' h0, iblk3_2_eq, h2, iblk3_3_eq, h3, iblk3_1_eq, pay6_eq]
      exact congrArg arr2 (funext fun g => funext fun j =>
        (Finset.sum_range_succ (fun k => tileS3 (bat3 V c) (biasRelu (mm a' W4') b4') k g j) (n + 1)).symm)
    · show k3_pay1 (k3_pay7 _ (outsAt3 V c n (Nat.lt_of_succ_lt hn)).2.2) = _
      rw [ih2, iblk3_1_eq, pay17_eq]
      exact congrArg arr2 (funext fun g => funext fun _ =>
        (Finset.sum_range_succ (fun k => tileC3 (bat3 V c) k g) (n + 1)).symm)

include h4 h5 h6 h7

/-- At the last point the accumulators are the sums and counts over all the rows, so the head is applied to the pooled means. -/
theorem out3_last (hn : 19 < cfg3.N) :
    (outsAt3 V c 19 hn).1 = arr2 (headOf (bat3 V c) Wf1' bf1' Wf2' bf2' (biasRelu (mm a' W4') b4')) := by
  obtain ⟨i1, i2⟩ := acc3_inv V c a' W4' b4' h0 h2 h3 19 hn
  show k3_pay2 (outsAt3 V c 19 hn).2.1 (outsAt3 V c 19 hn).2.2 _ _ _ _ = _
  rw [i1, i2, iblk3_4_eq, h4, iblk3_5_eq, h5, iblk3_6_eq, h6, iblk3_7_eq, h7, pay2_eq]
  refine congrArg (fun m => arr2 (affine (affine m Wf1' bf1') Wf2' bf2')) (funext fun g => funext fun k => ?_)
  exact congrArg₂ (· / max · 1) (accS3_last _ _ g k) (accC3_last _ g)

theorem flushed3_eq (t : Fin cfg3.N) (hf : (cfg3.win 8).flush t = true) :
    (dat3 V c).flushed 8 t = ((cfg3.win 8).blk t).view.read (Elt Ideal) (arr2 (headOf (bat3 V c) Wf1' bf1' Wf2' bf2' (biasRelu (mm a' W4') b4'))) := by
  obtain ⟨n, hn⟩ := t
  obtain rfl : n = 19 := by
    have h1 : n % 20 = 19 := (flush3_8 ⟨n, hn⟩).mp hf
    have h2 : n < 20 := lt20_3 ⟨n, hn⟩
    omega
  show (cfg3.win 8).cut (grid3.coords _) ((dat3 V c).after 8 _) = _
  rw [after3_8, out3_last V c a' W4' b4' Wf1' bf1' Wf2' bf2' h0 h2 h3 h4 h5 h6 h7 hn]
  funext j
  show _ = arr2 (headOf (bat3 V c) Wf1' bf1' Wf2' bf2' (biasRelu (mm a' W4') b4')) (((cfg3.win 8).blk ⟨19, hn⟩).view.emb j)
  rw [emb3_8]

theorem final3 :
    (dat3 V c).arrAt 8 cfg3.N = arr2 (headOf (fun i : Fin 100000 => (V c main_v102) (ix2 i 0)) Wf1' bf1' Wf2' bf2' (biasRelu (mm a' W4') b4')) :=
  (dat3 V c).arrAt_eq_of_cover 8 _ (fun t hf => flushed3_eq V c a' W4' b4' Wf1' bf1' Wf2' bf2' h0 h2 h3 h4 h5 h6 h7 t hf) cover3

end Value

end Cert.KernelIdeal.Fr

end
-- ==== Proof.LibScatterGatherRows.lean ====
import Idealize.ShloMosaic.Lib.ValueIdxRank1
import Idealize.ShloMosaic.PureOps.Contract
import Idealize.ShloMosaic.PureOps.Ideal.Laws
import Idealize.ShloMosaic.Lib.Pipeline.Value
import Mathlib.Algebra.BigOperators.Group.Finset.Basic
import Mathlib.Algebra.BigOperators.Group.Finset.Piecewise

open scoped BigOperators

namespace Cert.LibScatterGatherRows

open Idealize.ShloMosaic Idealize.ShloMosaic.ValueIdx

/-- "Add `n` to a word that reads negative", as a compare, an add and a select compute it. -/
theorem select_slt_zero (s n : BitVec 32) :
    Scalar.select (IntOp.cmpi .slt s 0#32) (IntOp.addi s n) s = if s.toInt < 0 then s + n else s := by
  unfold Scalar.select IntOp.cmpi IntOp.addi
  by_cases h : s.toInt < 0 <;> simp [BitVec.slt, h]

theorem bcast_col {α : Type} {n : Nat} (h : (⟨1, ![n]⟩ : Shape).BroadcastsInDim ⟨2, ![n, 1]⟩ ![0])
    (x : (⟨1, ![n]⟩ : Shape).Idx → α) (e : Fin n) (c : Fin 1) :
    broadcastInDim ⟨2, ![n, 1]⟩ ![0] h x (ix2 e c) = x (ix1 e) := by
  refine broadcastInDim_apply _ h x _ (ix1 e) (fun a => ?_)
  match a with
  | ⟨0, _⟩ =>
    show e.val = if n = 1 then 0 else e.val
    have := e.isLt
    split <;> omega

theorem bcast_wide {α : Type} {n D : Nat} (h : (⟨2, ![n, 1]⟩ : Shape).BroadcastsInDim ⟨2, ![n, D]⟩ ![0, 1])
    (x : (⟨2, ![n, 1]⟩ : Shape).Idx → α) (e : Fin n) (k : Fin D) :
    broadcastInDim ⟨2, ![n, D]⟩ ![0, 1] h x (ix2 e k) = x (ix2 e 0) := by
  refine broadcastInDim_apply _ h x _ (ix2 e 0) (fun a => ?_)
  match a with
  | ⟨0, _⟩ =>
    show e.val = if n = 1 then 0 else e.val
    have := e.isLt
    split <;> omega
  | ⟨1, _⟩ =>
    show 0 = if (1 : Nat) = 1 then 0 else k.val
    rw [if_pos rfl]

theorem bcast_bias {α : Type} {N D : Nat} (h₁ : (⟨1, ![D]⟩ : Shape).BroadcastsInDim ⟨2, ![1, D]⟩ ![1])
    (h₂ : (⟨2, ![1, D]⟩ : Shape).BroadcastsInDim ⟨2, ![N, D]⟩ ![0, 1]) (x : (⟨1, ![D]⟩ : Shape).Idx → α) (v : Fin N) (k : Fin D) :
    broadcastInDim ⟨2, ![N, D]⟩ ![0, 1] h₂ (broadcastInDim ⟨2, ![1, D]⟩ ![1] h₁ x) (ix2 v k) = x (ix1 k) := by
  have hk : k.val = if D = 1 then 0 else k.val := by
    have := k.isLt
    split <;> omega
  refine (broadcastInDim_apply _ h₂ _ _ (ix2 0 k) (fun a => ?_)).trans
    (broadcastInDim_apply _ h₁ x _ (ix1 k) (fun a => match a with | ⟨0, _⟩ => hk))
  match a with
  | ⟨0, _⟩ =>
    show 0 = if (1 : Nat) = 1 then 0 else v.val
    rw [if_pos rfl]
  | ⟨1, _⟩ => exact hk

/-- A plain matrix product at (g, j): the sum over its one contracted axis, re-indexed by that axis' coordinate. -/
theorem dot_apply {A K B : ℕ} (D : DotDims ⟨2, ![A, K]⟩ ⟨2, ![K, B]⟩ ⟨2, ![A, B]⟩) (hr : D.contr.rank = 1)
    (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (y : FVec Ideal ⟨2, ![A, K]⟩ .f32) (w : FVec Ideal ⟨2, ![K, B]⟩ .f32) (g : Fin A) (j : Fin B) :
    Host.dotGeneral D none y w (ix2 g j) = ∑ k : Fin K, y (ix2 g k) * w (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 g j) ((contrEquiv1 D K hr hs).symm k) = ix2 g k :=
    funext fun a => Fin.ext (by
      match a with
      | ⟨0, _⟩ => exact l0 _ _
      | ⟨1, _⟩ => exact (l1 _ _).trans hk)
  have er : D.rhsIdx (ix2 g j) ((contrEquiv1 D K hr hs).symm k) = ix2 k j :=
    funext fun a => Fin.ext (by
      match a with
      | ⟨0, _⟩ => exact (r0 _ _).trans hk
      | ⟨1, _⟩ => exact r1 _ _)
  rw [el, er]

/-- The row axis is collapsed and start-indexed (the clamped index word), the column axis an offset axis. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    have hsi : ∀ c, (GatherDims.siIdx ⟨[1], [0], [], sb, [0], 1, ss, wf⟩ (ix2 e k) c : (⟨2, ![n, 1]⟩ : Shape).Idx)
        = ix2 e 0 := fun c => funext fun b => Fin.ext <| by
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- An update lands on `t` exactly when, on every axis, start plus window coordinate is `t`'s coordinate. -/
theorem resultIdx?_eq_some {s si u : Shape} (d : ScatterDims s si u) {w : Nat} (j : u.Idx) (idx : IVec si w) (t : s.Idx) :
    d.resultIdx? j idx = some t ↔ ∀ a, d.start j idx a + d.window j a = ((t a).val : ℤ) := by
  unfold ScatterDims.resultIdx?
  split
  · next h =>
    rw [Option.some.injEq, funext_iff]
    refine forall_congr' fun a => ?_
    have := h a
    rw [Fin.ext_iff]
    show (d.start j idx a + d.window j a).toNat = (t a).val ↔ _
    omega
  · next h =>
    refine iff_of_false (fun hf => nomatch hf) fun ht => h fun a => ?_
    have := ht a
    have := (t a).isLt
    omega

/-- Row axis: the index word read signed, unclamped; column axis: the update's column. -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  have hs0 : ScatterDims.start ⟨[1], [0], [0], 1, wf⟩ (ix2 e k') idx 0 = (idx (ix2 e 0)).toInt :=
    (dif_pos (show (0 : Fin 2) ∈ ([0] : List (Fin 2)) by decide)).trans
      (congrArg (fun i => (idx i).toInt) (funext fun b => Fin.ext (match b with | ⟨0, _⟩ => rfl | ⟨1, _⟩ => rfl)))
  have hs1 : ScatterDims.start ⟨[1], [0], [0], 1, wf⟩ (ix2 e k') idx 1 = 0 :=
    dif_neg (show (1 : Fin 2) ∉ ([0] : List (Fin 2)) by decide)
  have hw0 : ScatterDims.window ⟨[1], [0], [0], 1, wf⟩ (ix2 e k') 0 = 0 :=
    dif_neg (show (0 : Fin 2) ∉ ([1] : List (Fin 2)) by decide)
  have hw1 : ScatterDims.window ⟨[1], [0], [0], 1, wf⟩ (ix2 e k') 1 = k'.val :=
    dif_pos (show (1 : Fin 2) ∈ ([1] : List (Fin 2)) by decide)
  rw [resultIdx?_eq_some, Fin.forall_fin_two, hs0, hw0, hs1, hw1, Fin.ext_iff]
  show _ + ((0 : ℕ) : ℤ) = (v.val : ℤ) ∧ (0 : ℤ) + (k'.val : ℤ) = (k.val : ℤ) ↔ _
  omega

/-- Of the update elements of row `e`, only column `k` can land on `(v, k)`, and it does when the index word is `v`. -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  classical
  unfold Host.scatterAdd
  rw [Ideal.hostScatterAdd_def]
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ) <;> simp [hP]

theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt :=
    (dif_pos (show (0 : Fin 1) ∈ ([0] : List (Fin 1)) by decide)).trans
      (congrArg (fun i => (idx i).toInt) (funext fun b => Fin.ext (match b with | ⟨0, _⟩ => rfl | ⟨1, _⟩ => rfl)))
  have hw0 : ScatterDims.window ⟨[], [0], [0], 1, wf⟩ (ix1 e) 0 = 0 :=
    dif_neg (show (0 : Fin 1) ∉ ([] : List (Fin 1)) by decide)
  rw [resultIdx?_eq_some, Fin.forall_fin_one, hs0, hw0]
  show _ + ((0 : ℕ) : ℤ) = (v.val : ℤ) ↔ _
  omega

theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  classical
  unfold Host.scatterAdd
  rw [Ideal.hostScatterAdd_def]
  unfold Ideal.hostScatterAdd
  congr 1
  rw [Finset.sum_filter, show ∀ f : (⟨1, ![n]⟩ : Shape).Idx → EReal, ∑ i, f i = ∑ e : Fin n, f (ix1 e) from
    fun f => (Equiv.sum_comp idxEquiv1.symm f).symm, Finset.sum_filter]
  refine Finset.sum_congr rfl (fun e _ => ?_)
  simp only [resultIdx_vec d huw hiw hsd hivd]

end Cert.LibScatterGatherRows
-- ==== Proof.KI.AggRead.lean ====
import proofs.«403456_j6588479832097_3_alg».proof.KernelIdeal
import proofs.«403456_j6588479832097_3_alg».proof.Proof.Spec
import proofs.«403456_j6588479832097_3_alg».proof.Proof.LibScatterGatherRows
import proofs.«403456_j6588479832097_3_alg».proof.Proof.KI.ValCommon
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Mathlib.Data.EReal.Operations

noncomputable section

namespace Cert.KernelIdeal.Val

open Idealize.ShloMosaic Idealize.ShloMosaic.ValueIdx Cert.KernelIdeal Cert.Spec Cert.LibScatterGatherRows

variable [Facts₀]
open Facts₀

def aggK (hf : FVec Ideal S100000x50 .f32) (dinv : FVec Ideal S100000 .f32) (src dst : IVec S1700000 32) : FVec Ideal S100000x50 .f32 :=
  mulf (Host.scatterAdd (F := Ideal) scatter_S100000x50_S1700000x1_S1700000x50_1_0_0_1
          (broadcastInDim S100000x50 ![] bcast_S_S100000x50 (constant (F := Ideal) S_ .f32 0x00000000#32))
          (broadcastInDim S1700000x1 ![0] bcast_S1700000_S1700000x1_0 dst)
          (extf .f32 (Host.gather gather_S100000x50_S1700000x1_S1700000x50_1_0_n_n_0_1_150
              (truncf .bf16 (mulf hf (broadcastInDim S100000x50 ![0, 1] bcast_S100000x1_S100000x50_0_1 (broadcastInDim S100000x1 ![0] bcast_S100000_S100000x1_0 dinv))) bitsLt_bf16_f32)
              (broadcastInDim S1700000x1 ![0] bcast_S1700000_S1700000x1_0
                (select (cmpi .slt src (broadcastInDim S1700000 ![] bcast_S_S1700000 (constantI S_ 32 0#32)))
                        (addi src (broadcastInDim S1700000 ![] bcast_S_S1700000 (constantI S_ 32 100000#32))) src))) bitsLt_bf16_f32))
       (broadcastInDim S100000x50 ![0, 1] bcast_S100000x1_S100000x50_0_1 (broadcastInDim S100000x1 ![0] bcast_S100000_S100000x1_0 dinv))

def dinvK (dst : IVec S1700000 32) : FVec Ideal S100000 .f32 :=
  select
    (cmpf .ogt
      (Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0 dst)
        (broadcastInDim S1700000 ![] bcast_S_S1700000 (constant (F := Ideal) S_ .f32 0x3F800000#32)))
      (broadcastInDim S100000 ![] bcast_S_S100000 (constant (F := Ideal) S_ .f32 0x00000000#32)))
    (Host.rsqrt
      (Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0 dst)
        (broadcastInDim S1700000 ![] bcast_S_S1700000 (constant (F := Ideal) S_ .f32 0x3F800000#32))))
    (broadcastInDim S100000 ![] bcast_S_S100000 (id (constant (F := Ideal) S_ .f32 0x00000000#32)))

theorem gathered_apply (x : FVec Ideal S100000x50 .bf16) (src : IVec S1700000 32) (e : Fin 1700000) (k : Fin 50) :
    (Host.gather gather_S100000x50_S1700000x1_S1700000x50_1_0_n_n_0_1_150 x
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src))
      : FVec Ideal S1700000x50 .bf16) (ix2 e k)
      = x (ix2 (rowOf (src (ix1 e))) k) := by
  rw [gather_rows _ rfl rfl rfl rfl rfl _ _ e k (by decide)]
  refine congrArg (fun r : Fin 100000 => x (ix2 r k)) (Fin.ext ?_)
  show min _ (100000 - 1) = min (wrapW (src (ix1 e))).toInt.toNat 99999
  rw [bcast_col]
  exact congrArg (fun s : BitVec 32 => min s.toInt.toNat 99999) (select_slt_zero _ _)

/-- Scaling rows before the gather and the sum after the scatter is `agg_split`; products and finite sums of reals are reals. -/
theorem aggK_coe (h' : Fin 100000 → Fin 50 → ℝ) (d' : Fin 100000 → ℝ) (src dst : IVec S1700000 32) :
    aggK (arr2 h') (arr1 d') src dst = arr2 (agg (fun e => src (ix1 e)) (fun e => dst (ix1 e)) d' h') := by
  funext i
  obtain ⟨v, k, rfl⟩ : ∃ (v : Fin 100000) (k : Fin 50), i = ix2 v k := ⟨i 0, i 1, eq_ix2 i⟩
  unfold aggK
  rw [mulf_apply, bcast_wide, bcast_col, scatterAdd_rows _ rfl rfl rfl rfl,
    broadcastInDim_scalar_apply, constant_apply, Ideal.ofBits_zero_f32, zero_add]
  show (∑ e ∈ _, _) * ((d' v : ℝ) : EReal)
    = ((agg (fun e => src (ix1 e)) (fun e => dst (ix1 e)) d' h' v k : ℝ) : EReal)
  rw [← agg_split, EReal.coe_mul, Fr.coe_sum]
  refine congrArg (fun t : EReal => t * ((d' v : ℝ) : EReal)) ?_
  refine Finset.sum_congr (Finset.filter_congr (fun e _ => by rw [bcast_col])) (fun e _ => ?_)
  rw [extf_apply, gathered_apply, truncf_apply, mulf_apply, bcast_wide, bcast_col, EReal.coe_mul]
  rfl

theorem deg_apply (dst : IVec S1700000 32) (v : Fin 100000) :
    Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0 dst)
        (broadcastInDim S1700000 ![] bcast_S_S1700000 (constant (F := Ideal) S_ .f32 0x3F800000#32)) (ix1 v)
      = ((∑ e ∈ Finset.univ.filter (fun e : Fin 1700000 => (dst (ix1 e)).toInt = (v.val : ℤ)), (1 : ℝ) : ℝ) : EReal) := by
  rw [scatterAdd_vec _ rfl rfl rfl rfl,
    broadcastInDim_scalar_apply, constant_apply, Ideal.ofBits_zero_f32, zero_add, Fr.coe_sum]
  refine Finset.sum_congr (Finset.filter_congr (fun e _ => by rw [bcast_col])) (fun e _ => ?_)
  rw [broadcastInDim_scalar_apply, constant_apply, Ideal.ofBits_one_f32]
  rfl

theorem hostRsqrt_apply {s : Shape} {φ : FTy} (x : FVec Ideal s φ) (i : s.Idx) : Host.rsqrt x i = Ideal.rsqrt (x i) := rfl

/-- Each entry is the inverse square root of a positive real degree, or zero. -/
theorem dinvK_real (dst : IVec S1700000 32) : ∃ d' : Fin 100000 → ℝ, dinvK dst = arr1 d' := by
  have key : ∀ v : Fin 100000, ∃ r : ℝ, dinvK dst (ix1 v) = ((r : ℝ) : EReal) := by
    intro v
    unfold dinvK
    rw [select_apply, cmpf_apply, Ideal.cmpf_def, hostRsqrt_apply, deg_apply,
      broadcastInDim_scalar_apply, broadcastInDim_scalar_apply, constant_apply]
    show ∃ r : ℝ, Scalar.select (Ideal.cmp .ogt _ (Ideal.ofBits .f32 0x00000000#32)) _ (Ideal.ofBits .f32 0x00000000#32) = ((r : ℝ) : EReal)
    rw [Ideal.ofBits_zero_f32]
    generalize (∑ e ∈ Finset.univ.filter (fun e : Fin 1700000 => (dst (ix1 e)).toInt = (v.val : ℤ)), (1 : ℝ)) = c
    unfold Scalar.select Ideal.cmp
    by_cases hc : 0 < c
    · refine ⟨(Real.sqrt c)⁻¹, ?_⟩
      have h0 : (0 : EReal) < ((c : ℝ) : EReal) := by exact_mod_cast hc
      simp [h0, not_lt.mpr hc.le, hc.ne']
    · refine ⟨0, ?_⟩
      have h0 : ¬ (0 : EReal) < ((c : ℝ) : EReal) := by exact_mod_cast hc
      simp [h0]
  choose d' hd' using key
  refine ⟨d', funext fun i => ?_⟩
  rw [eq_ix1 i]
  exact hd' (i 0)

end Cert.KernelIdeal.Val

end
-- ==== Proof.KI.HostRead.lean ====
import proofs.«403456_j6588479832097_3_alg».proof.KernelIdeal
import proofs.«403456_j6588479832097_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.Spec

variable [Facts₀]
open Facts₀

theorem reshape_row {a : ℕ} (b' : Fin a → ℝ) (h : (⟨1, ![a]⟩ : Shape).ShapeCasts ⟨2, ![1, a]⟩) :
    shapeCast ⟨2, ![1, a]⟩ (arr1 b') h = arr2 (fun (_ : Fin 1) k => b' k) := by
  funext j
  obtain ⟨z, k, rfl⟩ : ∃ (z : Fin 1) (k : Fin a), j = ix2 z k := ⟨j 0, j 1, eq_ix2 j⟩
  exact shapeCast_a_1a_apply _ h z k

theorem reshape_col_apply (x2 : IVec S100000 32) (i : Fin 100000) :
    shapeCast S100000x1 x2 shapeCasts_S100000_S100000x1 (ix2 i (0 : Fin 1)) = x2 (ix1 i) :=
  shapeCast_apply x2 shapeCasts_S100000_S100000x1 (ix2 i (0 : Fin 1)) (ix1 i) (by
    rw [Shape.rowMajor_val_one, Shape.rowMajor_val_two]
    show i.val = i.val * 1 + 0
    omega)

theorem extf_arr2 (h' : Fin 100000 → Fin 50 → ℝ) :
    (extf .f32 (arr2 h' : FVec Ideal S100000x50 .bf16) bitsLt_bf16_f32 : FVec Ideal S100000x50 .f32) = arr2 h' := rfl

theorem truncf_arr2 (h' : Fin 100000 → Fin 50 → ℝ) :
    (truncf .bf16 (arr2 h' : FVec Ideal S100000x50 .f32) bitsLt_bf16_f32 : FVec Ideal S100000x50 .bf16) = arr2 h' := rfl

theorem coe_max_real (a b : ℝ) : ((max a b : ℝ) : EReal) = max (a : EReal) (b : EReal) :=
  EReal.coe_strictMono.monotone.map_max

def biasReluK (a : FVec Ideal S100000x50 .f32) (b : FVec Ideal S50 .f32) : FVec Ideal S100000x50 .f32 :=
  maximumf (addf a (broadcastInDim S100000x50 ![0, 1] bcast_S1x50_S100000x50_0_1 (broadcastInDim S1x50 ![1] bcast_S50_S1x50_1 b))) (broadcastInDim S100000x50 ![] bcast_S_S100000x50 (constant S_ .f32 0x00000000#32))

theorem biasRows_apply {α : Type} (b : S50.Idx → α) (v : Fin 100000) (k : Fin 50) :
    broadcastInDim S100000x50 ![0, 1] bcast_S1x50_S100000x50_0_1 (broadcastInDim S1x50 ![1] bcast_S50_S1x50_1 b) (ix2 v k) = b (ix1 k) := by
  refine (broadcastInDim_apply _ _ _ (ix2 v k) (ix2 (0 : Fin 1) k)
    (fun a => match a with
      | ⟨0, _⟩ => rfl
      | ⟨1, _⟩ => by show k.val = if (50 : Nat) = 1 then 0 else k.val; rw [if_neg (by decide)])).trans ?_
  exact broadcastInDim_apply _ _ _ (ix2 (0 : Fin 1) k) (ix1 k)
    (fun a => match a with
      | ⟨0, _⟩ => by show k.val = if (50 : Nat) = 1 then 0 else k.val; rw [if_neg (by decide)])

theorem biasReluK_coe (a' : Fin 100000 → Fin 50 → ℝ) (b' : Fin 50 → ℝ) :
    biasReluK (arr2 a') (arr1 b') = arr2 (biasRelu a' b') := by
  funext j
  obtain ⟨v, k, rfl⟩ : ∃ (v : Fin 100000) (k : Fin 50), j = ix2 v k := ⟨j 0, j 1, eq_ix2 j⟩
  unfold biasReluK
  rw [maximumf_apply, addf_apply, biasRows_apply,
    broadcastInDim_apply _ bcast_S_S100000x50 _ (ix2 v k) ix0 (fun a => a.elim0),
    constant_apply, Ideal.ofBits_zero_f32]
  show max (((a' v k : ℝ) : EReal) + ((b' k : ℝ) : EReal)) 0 = ((max (a' v k + b' k) 0 : ℝ) : EReal)
  rw [coe_max_real, EReal.coe_add, EReal.coe_zero]

end Cert.KernelIdeal.Val

end
-- ==== Proof.KI.Stretch.lean ====
import proofs.«403456_j6588479832097_3_alg».proof.Proof.Gen.KernelIdeal.Launch
import proofs.«403456_j6588479832097_3_alg».proof.Proof.KI.AggRead
import proofs.«403456_j6588479832097_3_alg».proof.Proof.KI.HostRead
import Idealize.ShloMosaic.Lib.StableHlo.Run
import Idealize.ShloMosaic.Lib.Tactic

noncomputable section

namespace Cert.KernelIdeal.Val

open Idealize.ShloMosaic Idealize.ShloMosaic.TcCoe Idealize.SL.Sem Idealize.ShloMosaic.StableHlo Idealize.ShloMosaic.Tactic
open Cert.KernelIdeal Cert.KernelIdeal.Gen Cert.Spec

variable (W : Valuation τ sig (Elt Ideal))

set_option maxHeartbeats 1000000 in

theorem agg_stretch1 :
    StableHlo.after hostOps1 W (Proc.devRef .tc main_v34)
      = aggK (extf .f32 (W (Proc.devRef .tc main_v15)) bitsLt_bf16_f32) (W (Proc.devRef .tc main_v14)) (W (Proc.devRef .tc main_v3)) (W (Proc.devRef .tc main_v6)) := by
  unfold aggK
  after_results_simp <;> rfl
theorem row_stretch1 :
    StableHlo.after hostOps1 W (Proc.devRef .tc main_v35) = fun i => shapeCast S1x50 (W (Proc.devRef .tc main_arg4)) shapeCasts_S50_S1x50 i := by
  after_results
  rfl

set_option maxHeartbeats 1000000 in

theorem agg_stretch2 :
    StableHlo.after hostOps2 W (Proc.devRef .tc main_v55)
      = aggK (extf .f32 (W (Proc.devRef .tc main_v36)) bitsLt_bf16_f32) (W (Proc.devRef .tc main_v14)) (W (Proc.devRef .tc main_v3)) (W (Proc.devRef .tc main_v6)) := by
  unfold aggK
  after_results_simp <;> rfl
theorem row_stretch2 :
    StableHlo.after hostOps2 W (Proc.devRef .tc main_v56) = fun i => shapeCast S1x50 (W (Proc.devRef .tc main_arg6)) shapeCasts_S50_S1x50 i := by
  after_results
  rfl

theorem relu_call (W' : Valuation τ sig (Elt Ideal)) :
    StableHlo.after hostOps3_1 W' (Proc.devRef .tc main_v80)
      = (maximumf (F := Ideal) (W' (Proc.devRef .tc main_v79) : FVec Ideal S100000x50 .f32)
          (broadcastInDim S100000x50 ![] bcast_S_S100000x50 (constant (F := Ideal) S_ .f32 0x00000000#32)) : FVec Ideal S100000x50 .f32) := by
  after_results
  all_goals (try simp only [TRef.ofBuf, TRef.toBuf, cast_eq])
  all_goals (try rfl)

set_option maxHeartbeats 1000000 in

theorem bias_stretch3 :
    StableHlo.after hostOps3 W (Proc.devRef .tc main_v79)
      = addf (aggK (extf .f32 (W (Proc.devRef .tc main_v57)) bitsLt_bf16_f32) (W (Proc.devRef .tc main_v14)) (W (Proc.devRef .tc main_v3)) (W (Proc.devRef .tc main_v6)))
          (broadcastInDim S100000x50 ![0, 1] bcast_S1x50_S100000x50_0_1 (broadcastInDim S1x50 ![1] bcast_S50_S1x50_1 (W (Proc.devRef .tc main_arg8)))) := by
  unfold aggK
  after_results_simp <;> rfl

theorem relu_stretch3 :
    StableHlo.after hostOps3_1 (StableHlo.after hostOps3 W) (Proc.devRef .tc main_v80)
      = biasReluK (aggK (extf .f32 (W (Proc.devRef .tc main_v57)) bitsLt_bf16_f32) (W (Proc.devRef .tc main_v14)) (W (Proc.devRef .tc main_v3)) (W (Proc.devRef .tc main_v6))) (W (Proc.devRef .tc main_arg8)) := by
  rw [relu_call, bias_stretch3]
  rfl

set_option maxHeartbeats 1000000 in

theorem agg_stretch4 :
    StableHlo.after hostOps3_2 W (Proc.devRef .tc main_v98)
      = aggK (W (Proc.devRef .tc main_v80)) (W (Proc.devRef .tc main_v14)) (W (Proc.devRef .tc main_v3)) (W (Proc.devRef .tc main_v6)) := by
  unfold aggK
  after_results_simp <;> rfl
theorem row_stretch4_b4 :
    StableHlo.after hostOps3_2 W (Proc.devRef .tc main_v99) = fun i => shapeCast S1x100 (W (Proc.devRef .tc main_arg10)) shapeCasts_S100_S1x100 i := by
  after_results
  rfl
theorem row_stretch4_bf1 :
    StableHlo.after hostOps3_2 W (Proc.devRef .tc main_v100) = fun i => shapeCast S1x50 (W (Proc.devRef .tc main_arg12)) shapeCasts_S50_S1x50 i := by
  after_results
  rfl
theorem row_stretch4_bf2 :
    StableHlo.after hostOps3_2 W (Proc.devRef .tc main_v101) = fun i => shapeCast S1x2 (W (Proc.devRef .tc main_arg14)) shapeCasts_S2_S1x2 i := by
  after_results
  rfl
theorem col_stretch4 :
    StableHlo.after hostOps3_2 W (Proc.devRef .tc main_v102) = fun i => shapeCast S100000x1 (W (Proc.devRef .tc main_arg2)) shapeCasts_S100000_S100000x1 i := by
  after_results
  rfl

end Cert.KernelIdeal.Val

end
-- ==== Proof.KI.Value.lean ====
import proofs.«403456_j6588479832097_3_alg».proof.Proof.KI.Back
import proofs.«403456_j6588479832097_3_alg».proof.Proof.KI.Val0
import proofs.«403456_j6588479832097_3_alg».proof.Proof.KI.Val1
import proofs.«403456_j6588479832097_3_alg».proof.Proof.KI.Val2
import proofs.«403456_j6588479832097_3_alg».proof.Proof.KI.Val3
import proofs.«403456_j6588479832097_3_alg».proof.Proof.KI.Stretch

set_option maxRecDepth 16384

noncomputable section

namespace Cert.KernelIdeal.Val

open Idealize.ShloMosaic Idealize.ShloMosaic.TcCoe Idealize.SL.Sem Idealize.ShloMosaic.StableHlo Idealize.ShloMosaic.Tactic
open Idealize.ShloMosaic.ValueIdx
open Cert.KernelIdeal Cert.KernelIdeal.Gen Cert.KernelIdeal.Fr Cert.Spec

variable (m : (ℓ : Loc nD τ sig) → Buf (Elt Ideal) ℓ) (c : Dev nD)

abbrev srcW : Fin 1700000 → BitVec 32 := fun e => (W2 m c (Proc.devRef .tc main_v3)) (ix1 e)
abbrev dstW : Fin 1700000 → BitVec 32 := fun e => (W2 m c (Proc.devRef .tc main_v6)) (ix1 e)
abbrev batW : Fin 100000 → BitVec 32 := fun i => (m ((c : Thread nD τ).loc main_arg2)) (ix1 i)

variable (x' : Fin 100000 → Fin 128 → ℝ) (W1' : Fin 128 → Fin 50 → ℝ) (b1' : Fin 50 → ℝ) (W2' : Fin 50 → Fin 50 → ℝ) (b2' : Fin 50 → ℝ)
  (W3' : Fin 50 → Fin 50 → ℝ) (b3' : Fin 50 → ℝ) (W4' : Fin 50 → Fin 100 → ℝ) (b4' : Fin 100 → ℝ)
  (Wf1' : Fin 100 → Fin 50 → ℝ) (bf1' : Fin 50 → ℝ) (Wf2' : Fin 50 → Fin 2 → ℝ) (bf2' : Fin 2 → ℝ) (d' : Fin 100000 → ℝ)

structure Reals : Prop where
  a0 : m ((c : Thread nD τ).loc main_arg0) = arr2 x'
  a3 : m ((c : Thread nD τ).loc main_arg3) = arr2 W1'
  a4 : m ((c : Thread nD τ).loc main_arg4) = arr1 b1'
  a5 : m ((c : Thread nD τ).loc main_arg5) = arr2 W2'
  a6 : m ((c : Thread nD τ).loc main_arg6) = arr1 b2'
  a7 : m ((c : Thread nD τ).loc main_arg7) = arr2 W3'
  a8 : m ((c : Thread nD τ).loc main_arg8) = arr1 b3'
  a9 : m ((c : Thread nD τ).loc main_arg9) = arr2 W4'
  a10 : m ((c : Thread nD τ).loc main_arg10) = arr1 b4'
  a11 : m ((c : Thread nD τ).loc main_arg11) = arr2 Wf1'
  a12 : m ((c : Thread nD τ).loc main_arg12) = arr1 bf1'
  a13 : m ((c : Thread nD τ).loc main_arg13) = arr2 Wf2'
  a14 : m ((c : Thread nD τ).loc main_arg14) = arr1 bf2'
  dv : W2 m c (Proc.devRef .tc main_v14) = arr1 d'

theorem at2 (r : Ref sig .tc) (h0 : r ∉ hostOps0_W := by decide) (h1 : r ∉ hostOps0_1_W := by decide) : W2 m c (Proc.devRef .tc r) = m ((c : Thread nD τ).loc r) :=
  (W2_of m c r h1).trans ((W1_of m c r h0).trans rfl)
theorem keep3 (r : Ref sig .tc) (n0 : ∀ w, Pipeline.arrRef spec0 w ≠ r := by decide) : W3 m c (Proc.devRef .tc r) = W2 m c (Proc.devRef .tc r) := W3_of_ne m c r n0
theorem keep4 (r : Ref sig .tc) (n0 : ∀ w, Pipeline.arrRef spec0 w ≠ r := by decide) (h3 : r ∉ hostOps1_W := by decide) : W4 m c (Proc.devRef .tc r) = W2 m c (Proc.devRef .tc r) :=
  (W4_of m c r h3).trans (keep3 m c r n0)
theorem keep5 (r : Ref sig .tc) (n0 : ∀ w, Pipeline.arrRef spec0 w ≠ r := by decide) (h3 : r ∉ hostOps1_W := by decide) (n1 : ∀ w, Pipeline.arrRef spec1 w ≠ r := by decide) :
    W5 m c (Proc.devRef .tc r) = W2 m c (Proc.devRef .tc r) := (W5_of_ne m c r n1).trans (keep4 m c r n0 h3)
theorem keep6 (r : Ref sig .tc) (n0 : ∀ w, Pipeline.arrRef spec0 w ≠ r := by decide) (h3 : r ∉ hostOps1_W := by decide) (n1 : ∀ w, Pipeline.arrRef spec1 w ≠ r := by decide) (h5 : r ∉ hostOps2_W := by decide) :
    W6 m c (Proc.devRef .tc r) = W2 m c (Proc.devRef .tc r) := (W6_of m c r h5).trans (keep5 m c r n0 h3 n1)
theorem keep7 (r : Ref sig .tc) (n0 : ∀ w, Pipeline.arrRef spec0 w ≠ r := by decide) (h3 : r ∉ hostOps1_W := by decide) (n1 : ∀ w, Pipeline.arrRef spec1 w ≠ r := by decide) (h5 : r ∉ hostOps2_W := by decide)
    (n2 : ∀ w, Pipeline.arrRef spec2 w ≠ r := by decide) : W7 m c (Proc.devRef .tc r) = W2 m c (Proc.devRef .tc r) := (W7_of_ne m c r n2).trans (keep6 m c r n0 h3 n1 h5)
theorem keep9 (r : Ref sig .tc) (n0 : ∀ w, Pipeline.arrRef spec0 w ≠ r := by decide) (h3 : r ∉ hostOps1_W := by decide) (n1 : ∀ w, Pipeline.arrRef spec1 w ≠ r := by decide) (h5 : r ∉ hostOps2_W := by decide)
    (n2 : ∀ w, Pipeline.arrRef spec2 w ≠ r := by decide) (h7 : r ∉ hostOps3_W := by decide) (h8 : r ∉ hostOps3_1_W := by decide) : W9 m c (Proc.devRef .tc r) = W2 m c (Proc.devRef .tc r) :=
  (W9_of m c r h8).trans ((W8_of m c r h7).trans (keep7 m c r n0 h3 n1 h5 n2))
theorem keep10 (r : Ref sig .tc) (n0 : ∀ w, Pipeline.arrRef spec0 w ≠ r := by decide) (h3 : r ∉ hostOps1_W := by decide) (n1 : ∀ w, Pipeline.arrRef spec1 w ≠ r := by decide) (h5 : r ∉ hostOps2_W := by decide)
    (n2 : ∀ w, Pipeline.arrRef spec2 w ≠ r := by decide) (h7 : r ∉ hostOps3_W := by decide) (h8 : r ∉ hostOps3_1_W := by decide) (h9 : r ∉ hostOps3_2_W := by decide) : W10 m c (Proc.devRef .tc r) = W2 m c (Proc.devRef .tc r) :=
  (W10_of m c r h9).trans (keep9 m c r n0 h3 n1 h5 n2 h7 h8)

section Chain

variable {m c x' W1' b1' W2' b2' W3' b3' W4' b4' Wf1' bf1' Wf2' bf2' d'}
variable (H : Reals m c x' W1' b1' W2' b2' W3' b3' W4' b4' Wf1' bf1' Wf2' bf2' d')
include H

theorem v15 : W3 m c (Proc.devRef .tc main_v15) = arr2 (mm x' W1') :=
  (W3_arr m c 2).trans (final0 (V2 m) c x' W1' ((at2 m c main_arg0).trans H.a0) ((at2 m c main_arg3).trans H.a3))

theorem v34 : W4 m c (Proc.devRef .tc main_v34) = arr2 (agg (srcW m c) (dstW m c) d' (mm x' W1')) := by
  show StableHlo.after hostOps1 (W3 m c) (Proc.devRef .tc main_v34) = _
  rw [agg_stretch1, v15 H, keep3 m c main_v14, keep3 m c main_v3, keep3 m c main_v6, H.dv, extf_arr2, aggK_coe]

theorem v35 : W4 m c (Proc.devRef .tc main_v35) = arr2 (fun (_ : Fin 1) k => b1' k) := by
  show StableHlo.after hostOps1 (W3 m c) (Proc.devRef .tc main_v35) = _
  rw [row_stretch1, keep3 m c main_arg4, at2 m c main_arg4, H.a4]
  exact reshape_row b1' _

theorem a5_4 : W4 m c (Proc.devRef .tc main_arg5) = arr2 W2' := by
  rw [keep4 m c main_arg5, at2 m c main_arg5, H.a5]

theorem v36 : W5 m c (Proc.devRef .tc main_v36) = arr2 (mm (biasRelu (agg (srcW m c) (dstW m c) d' (mm x' W1')) b1') W2') :=
  (W5_arr m c 3).trans (final1 (V4 m) c _ b1' W2' (v34 H) (v35 H) (a5_4 H))

theorem v55 : W6 m c (Proc.devRef .tc main_v55) = arr2 (agg (srcW m c) (dstW m c) d' (mm (biasRelu (agg (srcW m c) (dstW m c) d' (mm x' W1')) b1') W2')) := by
  show StableHlo.after hostOps2 (W5 m c) (Proc.devRef .tc main_v55) = _
  rw [agg_stretch2, v36 H, keep5 m c main_v14, keep5 m c main_v3,
    keep5 m c main_v6, H.dv, extf_arr2, aggK_coe]

theorem v56 : W6 m c (Proc.devRef .tc main_v56) = arr2 (fun (_ : Fin 1) k => b2' k) := by
  show StableHlo.after hostOps2 (W5 m c) (Proc.devRef .tc main_v56) = _
  rw [row_stretch2, keep5 m c main_arg6, at2 m c main_arg6, H.a6]
  exact reshape_row b2' _

theorem a7_6 : W6 m c (Proc.devRef .tc main_arg7) = arr2 W3' := by
  rw [keep6 m c main_arg7, at2 m c main_arg7, H.a7]

theorem v57 : W7 m c (Proc.devRef .tc main_v57)
    = arr2 (mm (biasRelu (agg (srcW m c) (dstW m c) d' (mm (biasRelu (agg (srcW m c) (dstW m c) d' (mm x' W1')) b1') W2')) b2') W3') :=
  (W7_arr m c 3).trans (final2 (V6 m) c _ b2' W3' (v55 H) (v56 H) (a7_6 H))

theorem v80 : W9 m c (Proc.devRef .tc main_v80) = arr2 (hid3 (srcW m c) (dstW m c) d' x' W1' b1' W2' b2' W3' b3') := by
  show StableHlo.after hostOps3_1 (StableHlo.after hostOps3 (W7 m c)) (Proc.devRef .tc main_v80) = _
  rw [relu_stretch3, v57 H, keep7 m c main_v14,
    keep7 m c main_v3, keep7 m c main_v6,
    keep7 m c main_arg8, at2 m c main_arg8, H.a8, H.dv,
    extf_arr2, aggK_coe, biasReluK_coe]
  rfl

theorem v98 : W10 m c (Proc.devRef .tc main_v98) = arr2 (agg (srcW m c) (dstW m c) d' (hid3 (srcW m c) (dstW m c) d' x' W1' b1' W2' b2' W3' b3')) := by
  show StableHlo.after hostOps3_2 (W9 m c) (Proc.devRef .tc main_v98) = _
  rw [agg_stretch4, v80 H, keep9 m c main_v14,
    keep9 m c main_v3,
    keep9 m c main_v6, H.dv, aggK_coe]

theorem v99 : W10 m c (Proc.devRef .tc main_v99) = arr2 (fun (_ : Fin 1) j => b4' j) := by
  show StableHlo.after hostOps3_2 (W9 m c) (Proc.devRef .tc main_v99) = _
  rw [row_stretch4_b4, keep9 m c main_arg10, at2 m c main_arg10, H.a10]
  exact reshape_row b4' _
theorem v100 : W10 m c (Proc.devRef .tc main_v100) = arr2 (fun (_ : Fin 1) j => bf1' j) := by
  show StableHlo.after hostOps3_2 (W9 m c) (Proc.devRef .tc main_v100) = _
  rw [row_stretch4_bf1, keep9 m c main_arg12, at2 m c main_arg12, H.a12]
  exact reshape_row bf1' _
theorem v101 : W10 m c (Proc.devRef .tc main_v101) = arr2 (fun (_ : Fin 1) j => bf2' j) := by
  show StableHlo.after hostOps3_2 (W9 m c) (Proc.devRef .tc main_v101) = _
  rw [row_stretch4_bf2, keep9 m c main_arg14, at2 m c main_arg14, H.a14]
  exact reshape_row bf2' _
theorem v102 (i : Fin 100000) : (W10 m c (Proc.devRef .tc main_v102)) (ix2 i (0 : Fin 1)) = batW m c i := by
  show (StableHlo.after hostOps3_2 (W9 m c) (Proc.devRef .tc main_v102)) (ix2 i (0 : Fin 1)) = _
  rw [col_stretch4, keep9 m c main_arg2, at2 m c main_arg2]
  exact reshape_col_apply _ i
theorem a9_10 : W10 m c (Proc.devRef .tc main_arg9) = arr2 W4' := by
  rw [keep10 m c main_arg9, at2 m c main_arg9, H.a9]
theorem a11_10 : W10 m c (Proc.devRef .tc main_arg11) = arr2 Wf1' := by
  rw [keep10 m c main_arg11, at2 m c main_arg11, H.a11]
theorem a13_10 : W10 m c (Proc.devRef .tc main_arg13) = arr2 Wf2' := by
  rw [keep10 m c main_arg13, at2 m c main_arg13, H.a13]

theorem result : W11 m c (Proc.devRef .tc main_v103)
    = arr2 (outK (srcW m c) (dstW m c) d' (batW m c) x' W1' b1' W2' b2' W3' b3' W4' b4' Wf1' bf1' Wf2' bf2') := by
  rw [W11_main_v103, final3 (V10 m) c _ W4' b4' Wf1' bf1' Wf2' bf2' (v98 H) (a9_10 H) (v99 H) (a11_10 H) (v100 H) (a13_10 H) (v101 H)]
  have hb : (fun i : Fin 100000 => (V10 m c main_v102) (ix2 i (0 : Fin 1))) = batW m c := funext fun i => v102 H i
  rw [hb]
  rfl

end Chain

end Cert.KernelIdeal.Val

end
-- ==== Proof.RefRead.lean ====
import proofs.«403456_j6588479832097_3_alg».proof.Proof.RefRun
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S100000, .i32⟩ : BufTy).Contents (Elt F) :=
  iotaInDim S100000 32 0

def val_main_v1 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

def val_main_v2 (x1 : (⟨S2x1600000, .i32⟩ : BufTy).Contents (Elt F)) : (⟨S1600000, .i32⟩ : BufTy).Contents (Elt F) :=
  shapeCast _ (val_main_v1 (F := F) x1) shapeCasts_S1x1600000_S1600000

def val_main_v3 (x1 : (⟨S2x1600000, .i32⟩ : BufTy).Contents (Elt F)) : (⟨S1700000, .i32⟩ : BufTy).Contents (Elt F) :=
  concatenate S1700000 0 [⟨S1600000, (val_main_v2 (F := F) x1)⟩, ⟨S100000, (val_main_v0 (F := F))⟩] concatenates_S1600000_S100000_S1700000_d0

def val_main_v4 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

def val_main_v5 (x1 : (⟨S2x1600000, .i32⟩ : BufTy).Contents (Elt F)) : (⟨S1600000, .i32⟩ : BufTy).Contents (Elt F) :=
  shapeCast _ (val_main_v4 (F := F) x1) shapeCasts_S1x1600000_S1600000

def val_main_v6 (x1 : (⟨S2x1600000, .i32⟩ : BufTy).Contents (Elt F)) : (⟨S1700000, .i32⟩ : BufTy).Contents (Elt F) :=
  concatenate S1700000 0 [⟨S1600000, (val_main_v5 (F := F) x1)⟩, ⟨S100000, (val_main_v0 (F := F))⟩] concatenates_S1600000_S100000_S1700000_d0

def val_main_cst : (⟨S_, .f32⟩ : BufTy).Contents (Elt F) :=
  constant S_ .f32 0x3F800000#32

def val_main_v7 : (⟨S1700000, .f32⟩ : BufTy).Contents (Elt F) :=
  broadcastInDim S1700000 ![] bcast_S_S1700000 (val_main_cst (F := F))

def val_main_cst_0 : (⟨S_, .f32⟩ : BufTy).Contents (Elt F) :=
  constant S_ .f32 0x00000000#32

def val_main_v8 : (⟨S100000, .f32⟩ : BufTy).Contents (Elt F) :=
  broadcastInDim S100000 ![] bcast_S_S100000 (val_main_cst_0 (F := F))

def val_main_v9 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v10 (x1 : (⟨S2x1600000, .i32⟩ : BufTy).Contents (Elt F)) : (⟨S100000, .f32⟩ : BufTy).Contents (Elt F) :=
  Host.scatterAdd scatter_S100000_S1700000x1_S1700000_n_0_0_1 (val_main_v8 (F := F)) (val_main_v9 (F := F) x1) (val_main_v7 (F := F))

def val_main_cst_1 : (⟨S_, .f32⟩ : BufTy).Contents (Elt F) :=
  constant S_ .f32 0x00000000#32

def val_main_v11 : (⟨S100000, .f32⟩ : BufTy).Contents (Elt F) :=
  broadcastInDim S100000 ![] bcast_S_S100000 (val_main_cst_1 (F := F))

def val_main_v12 (x1 : (⟨S2x1600000, .i32⟩ : BufTy).Contents (Elt F)) : (⟨S100000, .i1⟩ : BufTy).Contents (Elt F) :=
  cmpf (F := F) .ogt (val_main_v10 (F := F) x1) (val_main_v11 (F := F))

def val_main_v13 (x1 : (⟨S2x1600000, .i32⟩ : BufTy).Contents (Elt F)) : (⟨S100000, .f32⟩ : BufTy).Contents (Elt F) :=
  Host.rsqrt (val_main_v10 (F := F) x1)

def val_main_cst_2 : (⟨S_, .f32⟩ : BufTy).Contents (Elt F) :=
  constant S_ .f32 0x00000000#32

def val_main_call0_v0 : (⟨S_, .f32⟩ : BufTy).Contents (Elt F) :=
  id (val_main_cst_2 (F := F))

def val_main_call0_v1 : (⟨S100000, .f32⟩ : BufTy).Contents (Elt F) :=
  broadcastInDim S100000 ![] bcast_S_S100000 (val_main_call0_v0 (F := F))

def val_main_v14 (x1 : (⟨S2x1600000, .i32⟩ : BufTy).Contents (Elt F)) : (⟨S100000, .f32⟩ : BufTy).Contents (Elt F) :=
  select (val_main_v12 (F := F) x1) (val_main_v13 (F := F) x1) (val_main_call0_v1 (F := F))

def val_main_c : (⟨S_, .i32⟩ : BufTy).Contents (Elt F) :=
  constantI S_ 32 0#32

def val_main_v15 : (⟨S1700000, .i32⟩ : BufTy).Contents (Elt F) :=
  broadcastInDim S1700000 ![] bcast_S_S1700000 (val_main_c (F := F))

def val_main_v16 (x1 : (⟨S2x1600000, .i32⟩ : BufTy).Contents (Elt F)) : (⟨S1700000, .i1⟩ : BufTy).Contents (Elt F) :=
  cmpi .slt (val_main_v3 (F := F) x1) (val_main_v15 (F := F))

def val_main_c_3 : (⟨S_, .i32⟩ : BufTy).Contents (Elt F) :=
  constantI S_ 32 100000#32

def val_main_v17 : (⟨S1700000, .i32⟩ : BufTy).Contents (Elt F) :=
  broadcastInDim S1700000 ![] bcast_S_S1700000 (val_main_c_3 (F := F))

def val_main_v18 (x1 : (⟨S2x1600000, .i32⟩ : BufTy).Contents (Elt F)) : (⟨S1700000, .i32⟩ : BufTy).Contents (Elt F) :=
  addi (val_main_v3 (F := F) x1) (val_main_v17 (F := F))

def val_main_v19 (x1 : (⟨S2x1600000, .i32⟩ : BufTy).Contents (Elt F)) : (⟨S1700000, .i32⟩ : BufTy).Contents (Elt F) :=
  select (val_main_v16 (F := F) x1) (val_main_v18 (F := F) x1) (val_main_v3 (F := F) x1)

def val_main_v20 (x1 : (⟨S2x1600000, .i32⟩ : BufTy).Contents (Elt F)) : (⟨S1700000x1, .i32⟩ : BufTy).Contents (Elt F) :=
  broadcastInDim S1700000x1 ![0] bcast_S1700000_S1700000x1_0 (val_main_v19 (F := F) x1)

def val_main_v21 (x1 : (⟨S2x1600000, .i32⟩ : BufTy).Contents (Elt F)) : (⟨S1700000, .f32⟩ : BufTy).Contents (Elt F) :=
  Host.gather gather_S100000_S1700000x1_S1700000_n_0_n_n_0_1_1 (val_main_v14 (F := F) x1) (val_main_v20 (F := F) x1)

def val_main_c_4 : (⟨S_, .i32⟩ : BufTy).Contents (Elt F) :=
  constantI S_ 32 0#32

def val_main_v22 : (⟨S1700000, .i32⟩ : BufTy).Contents (Elt F) :=
  broadcastInDim S1700000 ![] bcast_S_S1700000 (val_main_c_4 (F := F))

def val_main_v23 (x1 : (⟨S2x1600000, .i32⟩ : BufTy).Contents (Elt F)) : (⟨S1700000, .i1⟩ : BufTy).Contents (Elt F) :=
  cmpi .slt (val_main_v6 (F := F) x1) (val_main_v22 (F := F))

def val_main_c_5 : (⟨S_, .i32⟩ : BufTy).Contents (Elt F) :=
  constantI S_ 32 100000#32

def val_main_v24 : (⟨S1700000, .i32⟩ : BufTy).Contents (Elt F) :=
  broadcastInDim S1700000 ![] bcast_S_S1700000 (val_main_c_5 (F := F))

def val_main_v25 (x1 : (⟨S2x1600000, .i32⟩ : BufTy).Contents (Elt F)) : (⟨S1700000, .i32⟩ : BufTy).Contents (Elt F) :=
  addi (val_main_v6 (F := F) x1) (val_main_v24 (F := F))

def val_main_v26 (x1 : (⟨S2x1600000, .i32⟩ : BufTy).Contents (Elt F)) : (⟨S1700000, .i32⟩ : BufTy).Contents (Elt F) :=
  select (val_main_v23 (F := F) x1) (val_main_v25 (F := F) x1) (val_main_v6 (F := F) x1)

def val_main_v27 (x1 : (⟨S2x1600000, .i32⟩ : BufTy).Contents (Elt F)) : (⟨S1700000x1, .i32⟩ : BufTy).Contents (Elt F) :=
  broadcastInDim S1700000x1 ![0] bcast_S1700000_S1700000x1_0 (val_main_v26 (F := F) x1)

def val_main_v28 (x1 : (⟨S2x1600000, .i32⟩ : BufTy).Contents (Elt F)) : (⟨S1700000, .f32⟩ : BufTy).Contents (Elt F) :=
  Host.gather gather_S100000_S1700000x1_S1700000_n_0_n_n_0_1_1 (val_main_v14 (F := F) x1) (val_main_v27 (F := F) x1)

def val_main_v29 (x1 : (⟨S2x1600000, .i32⟩ : BufTy).Contents (Elt F)) : (⟨S1700000, .f32⟩ : BufTy).Contents (Elt F) :=
  mulf (val_main_v21 (F := F) x1) (val_main_v28 (F := F) x1)

def val_main_v30 (x0 : (⟨S100000x128, .f32⟩ : BufTy).Contents (Elt F)) (x3 : (⟨S128x50, .f32⟩ : BufTy).Contents (Elt F)) : (⟨S100000x50, .f32⟩ : BufTy).Contents (Elt F) :=
  Host.dotGeneral dot_S100000x128_S128x50_S100000x50_1_0_0_1_n_n none (x0) (x3)

theorem lhs_main_v30_0 (i : S100000x50.Idx) (q : dot_S100000x128_S128x50_S100000x50_1_0_0_1_n_n.contr.Idx) :
    (dot_S100000x128_S128x50_S100000x50_1_0_0_1_n_n.lhsIdx i q 0).val = (i 0).val := by
  unfold DotDims.lhsIdx
  rw [dif_neg (show ¬(0 : Fin S100000x128.rank) ∈ dot_S100000x128_S128x50_S100000x50_1_0_0_1_n_n.lhsBatch by decide), dif_pos (show (0 : Fin S100000x128.rank) ∈ dot_S100000x128_S128x50_S100000x50_1_0_0_1_n_n.lhsNonContracting by decide)]
  rfl

theorem lhs_main_v30_1 (i : S100000x50.Idx) (q : dot_S100000x128_S128x50_S100000x50_1_0_0_1_n_n.contr.Idx) :
    (dot_S100000x128_S128x50_S100000x50_1_0_0_1_n_n.lhsIdx i q 1).val = (q ⟨0, by decide⟩).val :=
  dot_S100000x128_S128x50_S100000x50_1_0_0_1_n_n.lhsIdx_val_of_single rfl i q

theorem rhs_main_v30_0 (i : S100000x50.Idx) (q : dot_S100000x128_S128x50_S100000x50_1_0_0_1_n_n.contr.Idx) :
    (dot_S100000x128_S128x50_S100000x50_1_0_0_1_n_n.rhsIdx i q 0).val = (q ⟨0, by decide⟩).val :=
  dot_S100000x128_S128x50_S100000x50_1_0_0_1_n_n.rhsIdx_val_of_single rfl i q

theorem rhs_main_v30_1 (i : S100000x50.Idx) (q : dot_S100000x128_S128x50_S100000x50_1_0_0_1_n_n.contr.Idx) :
    (dot_S100000x128_S128x50_S100000x50_1_0_0_1_n_n.rhsIdx i q 1).val = (i 1).val := by
  unfold DotDims.rhsIdx
  rw [dif_neg (show ¬(1 : Fin S128x50.rank) ∈ dot_S100000x128_S128x50_S100000x50_1_0_0_1_n_n.rhsBatch by decide), dif_pos (show (1 : Fin S128x50.rank) ∈ dot_S100000x128_S128x50_S100000x50_1_0_0_1_n_n.rhsNonContracting by decide)]
  rfl

def val_main_c_6 : (⟨S_, .i32⟩ : BufTy).Contents (Elt F) :=
  constantI S_ 32 0#32

def val_main_v31 : (⟨S1700000, .i32⟩ : BufTy).Contents (Elt F) :=
  broadcastInDim S1700000 ![] bcast_S_S1700000 (val_main_c_6 (F := F))

def val_main_v32 (x1 : (⟨S2x1600000, .i32⟩ : BufTy).Contents (Elt F)) : (⟨S1700000, .i1⟩ : BufTy).Contents (Elt F) :=
  cmpi .slt (val_main_v3 (F := F) x1) (val_main_v31 (F := F))

def val_main_c_7 : (⟨S_, .i32⟩ : BufTy).Contents (Elt F) :=
  constantI S_ 32 100000#32

def val_main_v33 : (⟨S1700000, .i32⟩ : BufTy).Contents (Elt F) :=
  broadcastInDim S1700000 ![] bcast_S_S1700000 (val_main_c_7 (F := F))

def val_main_v34 (x1 : (⟨S2x1600000, .i32⟩ : BufTy).Contents (Elt F)) : (⟨S1700000, .i32⟩ : BufTy).Contents (Elt F) :=
  addi (val_main_v3 (F := F) x1) (val_main_v33 (F := F))

def val_main_v35 (x1 : (⟨S2x1600000, .i32⟩ : BufTy).Contents (Elt F)) : (⟨S1700000, .i32⟩ : BufTy).Contents (Elt F) :=
  select (val_main_v32 (F := F) x1) (val_main_v34 (F := F) x1) (val_main_v3 (F := F) x1)

def val_main_v36 (x1 : (⟨S2x1600000, .i32⟩ : BufTy).Contents (Elt F)) : (⟨S1700000x1, .i32⟩ : BufTy).Contents (Elt F) :=
  broadcastInDim S1700000x1 ![0] bcast_S1700000_S1700000x1_0 (val_main_v35 (F := F) x1)

def val_main_v37 (x0 : (⟨S100000x128, .f32⟩ : BufTy).Contents (Elt F)) (x1 : (⟨S2x1600000, .i32⟩ : BufTy).Contents (Elt F)) (x3 : (⟨S128x50, .f32⟩ : BufTy).Contents (Elt F)) : (⟨S1700000x50, .f32⟩ : BufTy).Contents (Elt F) :=
  Host.gather gather_S100000x50_S1700000x1_S1700000x50_1_0_n_n_0_1_150 (val_main_v30 (F := F) x0 x3) (val_main_v36 (F := F) x1)

def val_main_v38 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)

def val_main_v39 (x1 : (⟨S2x1600000, .i32⟩ : BufTy).Contents (Elt F)) : (⟨S1700000x50, .f32⟩ : BufTy).Contents (Elt F) :=
  broadcastInDim S1700000x50 ![0, 1] bcast_S1700000x1_S1700000x50_0_1 (val_main_v38 (F := F) x1)

def val_main_v40 (x0 : (⟨S100000x128, .f32⟩ : BufTy).Contents (Elt F)) (x1 : (⟨S2x1600000, .i32⟩ : BufTy).Contents (Elt F)) (x3 : (⟨S128x50, .f32⟩ : BufTy).Contents (Elt F)) : (⟨S1700000x50, .f32⟩ : BufTy).Contents (Elt F) :=
  mulf (val_main_v37 (F := F) x0 x1 x3) (val_main_v39 (F := F) x1)

def val_main_cst_8 : (⟨S_, .f32⟩ : BufTy).Contents (Elt F) :=
  constant S_ .f32 0x00000000#32

def val_main_v41 : (⟨S100000x50, .f32⟩ : BufTy).Contents (Elt F) :=
  broadcastInDim S100000x50 ![] bcast_S_S100000x50 (val_main_cst_8 (F := F))

def val_main_v42 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v43 (x0 : (⟨S100000x128, .f32⟩ : BufTy).Contents (Elt F)) (x1 : (⟨S2x1600000, .i32⟩ : BufTy).Contents (Elt F)) (x3 : (⟨S128x50, .f32⟩ : BufTy).Contents (Elt F)) : (⟨S100000x50, .f32⟩ : BufTy).Contents (Elt F) :=
  Host.scatterAdd scatter_S100000x50_S1700000x1_S1700000x50_1_0_0_1 (val_main_v41 (F := F)) (val_main_v42 (F := F) x1) (val_main_v40 (F := F) x0 x1 x3)

def val_main_v44 (x4 : (⟨S50, .f32⟩ : BufTy).Contents (Elt F)) : (⟨S1x50, .f32⟩ : BufTy).Contents (Elt F) :=
  broadcastInDim S1x50 ![1] bcast_S50_S1x50_1 (x4)

def val_main_v45 (x4 : (⟨S50, .f32⟩ : BufTy).Contents (Elt F)) : (⟨S100000x50, .f32⟩ : BufTy).Contents (Elt F) :=
  broadcastInDim S100000x50 ![0, 1] bcast_S1x50_S100000x50_0_1 (val_main_v44 (F := F) x4)

def val_main_v46 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) : (⟨S100000x50, .f32⟩ : BufTy).Contents (Elt F) :=
  addf (val_main_v43 (F := F) x0 x1 x3) (val_main_v45 (F := F) x4)

def val_main_call1_cst : (⟨S_, .f32⟩ : BufTy).Contents (Elt F) :=
  constant S_ .f32 0x00000000#32

def val_main_call1_v0 : (⟨S100000x50, .f32⟩ : BufTy).Contents (Elt F) :=
  broadcastInDim S100000x50 ![] bcast_S_S100000x50 (val_main_call1_cst (F := F))

def val_main_v47 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) : (⟨S100000x50, .f32⟩ : BufTy).Contents (Elt F) :=
  maximumf (val_main_v46 (F := F) x0 x1 x3 x4) (val_main_call1_v0 (F := F))

def val_main_v48 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) : (⟨S100000x50, .f32⟩ : BufTy).Contents (Elt F) :=
  Host.dotGeneral dot_S100000x50_S50x50_S100000x50_1_0_0_1_n_n none (val_main_v47 (F := F) x0 x1 x3 x4) (x5)

theorem lhs_main_v48_0 (i : S100000x50.Idx) (q : dot_S100000x50_S50x50_S100000x50_1_0_0_1_n_n.contr.Idx) :
    (dot_S100000x50_S50x50_S100000x50_1_0_0_1_n_n.lhsIdx i q 0).val = (i 0).val := by
  unfold DotDims.lhsIdx
  rw [dif_neg (show ¬(0 : Fin S100000x50.rank) ∈ dot_S100000x50_S50x50_S100000x50_1_0_0_1_n_n.lhsBatch by decide), dif_pos (show (0 : Fin S100000x50.rank) ∈ dot_S100000x50_S50x50_S100000x50_1_0_0_1_n_n.lhsNonContracting by decide)]
  rfl

theorem lhs_main_v48_1 (i : S100000x50.Idx) (q : dot_S100000x50_S50x50_S100000x50_1_0_0_1_n_n.contr.Idx) :
    (dot_S100000x50_S50x50_S100000x50_1_0_0_1_n_n.lhsIdx i q 1).val = (q ⟨0, by decide⟩).val :=
  dot_S100000x50_S50x50_S100000x50_1_0_0_1_n_n.lhsIdx_val_of_single rfl i q

theorem rhs_main_v48_0 (i : S100000x50.Idx) (q : dot_S100000x50_S50x50_S100000x50_1_0_0_1_n_n.contr.Idx) :
    (dot_S100000x50_S50x50_S100000x50_1_0_0_1_n_n.rhsIdx i q 0).val = (q ⟨0, by decide⟩).val :=
  dot_S100000x50_S50x50_S100000x50_1_0_0_1_n_n.rhsIdx_val_of_single rfl i q

theorem rhs_main_v48_1 (i : S100000x50.Idx) (q : dot_S100000x50_S50x50_S100000x50_1_0_0_1_n_n.contr.Idx) :
    (dot_S100000x50_S50x50_S100000x50_1_0_0_1_n_n.rhsIdx i q 1).val = (i 1).val := by
  unfold DotDims.rhsIdx
  rw [dif_neg (show ¬(1 : Fin S50x50.rank) ∈ dot_S100000x50_S50x50_S100000x50_1_0_0_1_n_n.rhsBatch by decide), dif_pos (show (1 : Fin S50x50.rank) ∈ dot_S100000x50_S50x50_S100000x50_1_0_0_1_n_n.rhsNonContracting by decide)]
  rfl

def val_main_c_9 : (⟨S_, .i32⟩ : BufTy).Contents (Elt F) :=
  constantI S_ 32 0#32

def val_main_v49 : (⟨S1700000, .i32⟩ : BufTy).Contents (Elt F) :=
  broadcastInDim S1700000 ![] bcast_S_S1700000 (val_main_c_9 (F := F))

def val_main_v50 (x1 : (⟨S2x1600000, .i32⟩ : BufTy).Contents (Elt F)) : (⟨S1700000, .i1⟩ : BufTy).Contents (Elt F) :=
  cmpi .slt (val_main_v3 (F := F) x1) (val_main_v49 (F := F))

def val_main_c_10 : (⟨S_, .i32⟩ : BufTy).Contents (Elt F) :=
  constantI S_ 32 100000#32

def val_main_v51 : (⟨S1700000, .i32⟩ : BufTy).Contents (Elt F) :=
  broadcastInDim S1700000 ![] bcast_S_S1700000 (val_main_c_10 (F := F))

def val_main_v52 (x1 : (⟨S2x1600000, .i32⟩ : BufTy).Contents (Elt F)) : (⟨S1700000, .i32⟩ : BufTy).Contents (Elt F) :=
  addi (val_main_v3 (F := F) x1) (val_main_v51 (F := F))

def val_main_v53 (x1 : (⟨S2x1600000, .i32⟩ : BufTy).Contents (Elt F)) : (⟨S1700000, .i32⟩ : BufTy).Contents (Elt F) :=
  select (val_main_v50 (F := F) x1) (val_main_v52 (F := F) x1) (val_main_v3 (F := F) x1)

def val_main_v54 (x1 : (⟨S2x1600000, .i32⟩ : BufTy).Contents (Elt F)) : (⟨S1700000x1, .i32⟩ : BufTy).Contents (Elt F) :=
  broadcastInDim S1700000x1 ![0] bcast_S1700000_S1700000x1_0 (val_main_v53 (F := F) x1)

def val_main_v55 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) : (⟨S1700000x50, .f32⟩ : BufTy).Contents (Elt F) :=
  Host.gather gather_S100000x50_S1700000x1_S1700000x50_1_0_n_n_0_1_150 (val_main_v48 (F := F) x0 x1 x3 x4 x5) (val_main_v54 (F := F) x1)

def val_main_v56 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)

def val_main_v57 (x1 : (⟨S2x1600000, .i32⟩ : BufTy).Contents (Elt F)) : (⟨S1700000x50, .f32⟩ : BufTy).Contents (Elt F) :=
  broadcastInDim S1700000x50 ![0, 1] bcast_S1700000x1_S1700000x50_0_1 (val_main_v56 (F := F) x1)

def val_main_v58 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) : (⟨S1700000x50, .f32⟩ : BufTy).Contents (Elt F) :=
  mulf (val_main_v55 (F := F) x0 x1 x3 x4 x5) (val_main_v57 (F := F) x1)

def val_main_cst_11 : (⟨S_, .f32⟩ : BufTy).Contents (Elt F) :=
  constant S_ .f32 0x00000000#32

def val_main_v59 : (⟨S100000x50, .f32⟩ : BufTy).Contents (Elt F) :=
  broadcastInDim S100000x50 ![] bcast_S_S100000x50 (val_main_cst_11 (F := F))

def val_main_v60 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v61 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) : (⟨S100000x50, .f32⟩ : BufTy).Contents (Elt F) :=
  Host.scatterAdd scatter_S100000x50_S1700000x1_S1700000x50_1_0_0_1 (val_main_v59 (F := F)) (val_main_v60 (F := F) x1) (val_main_v58 (F := F) x0 x1 x3 x4 x5)

def val_main_v62 (x6 : (⟨S50, .f32⟩ : BufTy).Contents (Elt F)) : (⟨S1x50, .f32⟩ : BufTy).Contents (Elt F) :=
  broadcastInDim S1x50 ![1] bcast_S50_S1x50_1 (x6)

def val_main_v63 (x6 : (⟨S50, .f32⟩ : BufTy).Contents (Elt F)) : (⟨S100000x50, .f32⟩ : BufTy).Contents (Elt F) :=
  broadcastInDim S100000x50 ![0, 1] bcast_S1x50_S100000x50_0_1 (val_main_v62 (F := F) x6)

def val_main_v64 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) : (⟨S100000x50, .f32⟩ : BufTy).Contents (Elt F) :=
  addf (val_main_v61 (F := F) x0 x1 x3 x4 x5) (val_main_v63 (F := F) x6)

def val_main_call2_cst : (⟨S_, .f32⟩ : BufTy).Contents (Elt F) :=
  constant S_ .f32 0x00000000#32

def val_main_call2_v0 : (⟨S100000x50, .f32⟩ : BufTy).Contents (Elt F) :=
  broadcastInDim S100000x50 ![] bcast_S_S100000x50 (val_main_call2_cst (F := F))

def val_main_v65 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) : (⟨S100000x50, .f32⟩ : BufTy).Contents (Elt F) :=
  maximumf (val_main_v64 (F := F) x0 x1 x3 x4 x5 x6) (val_main_call2_v0 (F := F))

def val_main_v66 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) : (⟨S100000x50, .f32⟩ : BufTy).Contents (Elt F) :=
  Host.dotGeneral dot_S100000x50_S50x50_S100000x50_1_0_0_1_n_n none (val_main_v65 (F := F) x0 x1 x3 x4 x5 x6) (x7)

theorem lhs_main_v66_0 (i : S100000x50.Idx) (q : dot_S100000x50_S50x50_S100000x50_1_0_0_1_n_n.contr.Idx) :
    (dot_S100000x50_S50x50_S100000x50_1_0_0_1_n_n.lhsIdx i q 0).val = (i 0).val := by
  unfold DotDims.lhsIdx
  rw [dif_neg (show ¬(0 : Fin S100000x50.rank) ∈ dot_S100000x50_S50x50_S100000x50_1_0_0_1_n_n.lhsBatch by decide), dif_pos (show (0 : Fin S100000x50.rank) ∈ dot_S100000x50_S50x50_S100000x50_1_0_0_1_n_n.lhsNonContracting by decide)]
  rfl

theorem lhs_main_v66_1 (i : S100000x50.Idx) (q : dot_S100000x50_S50x50_S100000x50_1_0_0_1_n_n.contr.Idx) :
    (dot_S100000x50_S50x50_S100000x50_1_0_0_1_n_n.lhsIdx i q 1).val = (q ⟨0, by decide⟩).val :=
  dot_S100000x50_S50x50_S100000x50_1_0_0_1_n_n.lhsIdx_val_of_single rfl i q

theorem rhs_main_v66_0 (i : S100000x50.Idx) (q : dot_S100000x50_S50x50_S100000x50_1_0_0_1_n_n.contr.Idx) :
    (dot_S100000x50_S50x50_S100000x50_1_0_0_1_n_n.rhsIdx i q 0).val = (q ⟨0, by decide⟩).val :=
  dot_S100000x50_S50x50_S100000x50_1_0_0_1_n_n.rhsIdx_val_of_single rfl i q

theorem rhs_main_v66_1 (i : S100000x50.Idx) (q : dot_S100000x50_S50x50_S100000x50_1_0_0_1_n_n.contr.Idx) :
    (dot_S100000x50_S50x50_S100000x50_1_0_0_1_n_n.rhsIdx i q 1).val = (i 1).val := by
  unfold DotDims.rhsIdx
  rw [dif_neg (show ¬(1 : Fin S50x50.rank) ∈ dot_S100000x50_S50x50_S100000x50_1_0_0_1_n_n.rhsBatch by decide), dif_pos (show (1 : Fin S50x50.rank) ∈ dot_S100000x50_S50x50_S100000x50_1_0_0_1_n_n.rhsNonContracting by decide)]
  rfl

def val_main_c_12 : (⟨S_, .i32⟩ : BufTy).Contents (Elt F) :=
  constantI S_ 32 0#32

def val_main_v67 : (⟨S1700000, .i32⟩ : BufTy).Contents (Elt F) :=
  broadcastInDim S1700000 ![] bcast_S_S1700000 (val_main_c_12 (F := F))

def val_main_v68 (x1 : (⟨S2x1600000, .i32⟩ : BufTy).Contents (Elt F)) : (⟨S1700000, .i1⟩ : BufTy).Contents (Elt F) :=
  cmpi .slt (val_main_v3 (F := F) x1) (val_main_v67 (F := F))

def val_main_c_13 : (⟨S_, .i32⟩ : BufTy).Contents (Elt F) :=
  constantI S_ 32 100000#32

def val_main_v69 : (⟨S1700000, .i32⟩ : BufTy).Contents (Elt F) :=
  broadcastInDim S1700000 ![] bcast_S_S1700000 (val_main_c_13 (F := F))

def val_main_v70 (x1 : (⟨S2x1600000, .i32⟩ : BufTy).Contents (Elt F)) : (⟨S1700000, .i32⟩ : BufTy).Contents (Elt F) :=
  addi (val_main_v3 (F := F) x1) (val_main_v69 (F := F))

def val_main_v71 (x1 : (⟨S2x1600000, .i32⟩ : BufTy).Contents (Elt F)) : (⟨S1700000, .i32⟩ : BufTy).Contents (Elt F) :=
  select (val_main_v68 (F := F) x1) (val_main_v70 (F := F) x1) (val_main_v3 (F := F) x1)

def val_main_v72 (x1 : (⟨S2x1600000, .i32⟩ : BufTy).Contents (Elt F)) : (⟨S1700000x1, .i32⟩ : BufTy).Contents (Elt F) :=
  broadcastInDim S1700000x1 ![0] bcast_S1700000_S1700000x1_0 (val_main_v71 (F := F) x1)

def val_main_v73 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) : (⟨S1700000x50, .f32⟩ : BufTy).Contents (Elt F) :=
  Host.gather gather_S100000x50_S1700000x1_S1700000x50_1_0_n_n_0_1_150 (val_main_v66 (F := F) x0 x1 x3 x4 x5 x6 x7) (val_main_v72 (F := F) x1)

def val_main_v74 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)

def val_main_v75 (x1 : (⟨S2x1600000, .i32⟩ : BufTy).Contents (Elt F)) : (⟨S1700000x50, .f32⟩ : BufTy).Contents (Elt F) :=
  broadcastInDim S1700000x50 ![0, 1] bcast_S1700000x1_S1700000x50_0_1 (val_main_v74 (F := F) x1)

def val_main_v76 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) : (⟨S1700000x50, .f32⟩ : BufTy).Contents (Elt F) :=
  mulf (val_main_v73 (F := F) x0 x1 x3 x4 x5 x6 x7) (val_main_v75 (F := F) x1)

def val_main_cst_14 : (⟨S_, .f32⟩ : BufTy).Contents (Elt F) :=
  constant S_ .f32 0x00000000#32

def val_main_v77 : (⟨S100000x50, .f32⟩ : BufTy).Contents (Elt F) :=
  broadcastInDim S100000x50 ![] bcast_S_S100000x50 (val_main_cst_14 (F := F))

def val_main_v78 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v79 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) : (⟨S100000x50, .f32⟩ : BufTy).Contents (Elt F) :=
  Host.scatterAdd scatter_S100000x50_S1700000x1_S1700000x50_1_0_0_1 (val_main_v77 (F := F)) (val_main_v78 (F := F) x1) (val_main_v76 (F := F) x0 x1 x3 x4 x5 x6 x7)

def val_main_v80 (x8 : (⟨S50, .f32⟩ : BufTy).Contents (Elt F)) : (⟨S1x50, .f32⟩ : BufTy).Contents (Elt F) :=
  broadcastInDim S1x50 ![1] bcast_S50_S1x50_1 (x8)

def val_main_v81 (x8 : (⟨S50, .f32⟩ : BufTy).Contents (Elt F)) : (⟨S100000x50, .f32⟩ : BufTy).Contents (Elt F) :=
  broadcastInDim S100000x50 ![0, 1] bcast_S1x50_S100000x50_0_1 (val_main_v80 (F := F) x8)

def val_main_v82 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) : (⟨S100000x50, .f32⟩ : BufTy).Contents (Elt F) :=
  addf (val_main_v79 (F := F) x0 x1 x3 x4 x5 x6 x7) (val_main_v81 (F := F) x8)

def val_main_call3_cst : (⟨S_, .f32⟩ : BufTy).Contents (Elt F) :=
  constant S_ .f32 0x00000000#32

def val_main_call3_v0 : (⟨S100000x50, .f32⟩ : BufTy).Contents (Elt F) :=
  broadcastInDim S100000x50 ![] bcast_S_S100000x50 (val_main_call3_cst (F := F))

def val_main_v83 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) : (⟨S100000x50, .f32⟩ : BufTy).Contents (Elt F) :=
  maximumf (val_main_v82 (F := F) x0 x1 x3 x4 x5 x6 x7 x8) (val_main_call3_v0 (F := F))

def val_main_v84 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) : (⟨S100000x100, .f32⟩ : BufTy).Contents (Elt F) :=
  Host.dotGeneral dot_S100000x50_S50x100_S100000x100_1_0_0_1_n_n none (val_main_v83 (F := F) x0 x1 x3 x4 x5 x6 x7 x8) (x9)

theorem lhs_main_v84_0 (i : S100000x100.Idx) (q : dot_S100000x50_S50x100_S100000x100_1_0_0_1_n_n.contr.Idx) :
    (dot_S100000x50_S50x100_S100000x100_1_0_0_1_n_n.lhsIdx i q 0).val = (i 0).val := by
  unfold DotDims.lhsIdx
  rw [dif_neg (show ¬(0 : Fin S100000x50.rank) ∈ dot_S100000x50_S50x100_S100000x100_1_0_0_1_n_n.lhsBatch by decide), dif_pos (show (0 : Fin S100000x50.rank) ∈ dot_S100000x50_S50x100_S100000x100_1_0_0_1_n_n.lhsNonContracting by decide)]
  rfl

theorem lhs_main_v84_1 (i : S100000x100.Idx) (q : dot_S100000x50_S50x100_S100000x100_1_0_0_1_n_n.contr.Idx) :
    (dot_S100000x50_S50x100_S100000x100_1_0_0_1_n_n.lhsIdx i q 1).val = (q ⟨0, by decide⟩).val :=
  dot_S100000x50_S50x100_S100000x100_1_0_0_1_n_n.lhsIdx_val_of_single rfl i q

theorem rhs_main_v84_0 (i : S100000x100.Idx) (q : dot_S100000x50_S50x100_S100000x100_1_0_0_1_n_n.contr.Idx) :
    (dot_S100000x50_S50x100_S100000x100_1_0_0_1_n_n.rhsIdx i q 0).val = (q ⟨0, by decide⟩).val :=
  dot_S100000x50_S50x100_S100000x100_1_0_0_1_n_n.rhsIdx_val_of_single rfl i q

theorem rhs_main_v84_1 (i : S100000x100.Idx) (q : dot_S100000x50_S50x100_S100000x100_1_0_0_1_n_n.contr.Idx) :
    (dot_S100000x50_S50x100_S100000x100_1_0_0_1_n_n.rhsIdx i q 1).val = (i 1).val := by
  unfold DotDims.rhsIdx
  rw [dif_neg (show ¬(1 : Fin S50x100.rank) ∈ dot_S100000x50_S50x100_S100000x100_1_0_0_1_n_n.rhsBatch by decide), dif_pos (show (1 : Fin S50x100.rank) ∈ dot_S100000x50_S50x100_S100000x100_1_0_0_1_n_n.rhsNonContracting by decide)]
  rfl

def val_main_c_15 : (⟨S_, .i32⟩ : BufTy).Contents (Elt F) :=
  constantI S_ 32 0#32

def val_main_v85 : (⟨S1700000, .i32⟩ : BufTy).Contents (Elt F) :=
  broadcastInDim S1700000 ![] bcast_S_S1700000 (val_main_c_15 (F := F))

def val_main_v86 (x1 : (⟨S2x1600000, .i32⟩ : BufTy).Contents (Elt F)) : (⟨S1700000, .i1⟩ : BufTy).Contents (Elt F) :=
  cmpi .slt (val_main_v3 (F := F) x1) (val_main_v85 (F := F))

def val_main_c_16 : (⟨S_, .i32⟩ : BufTy).Contents (Elt F) :=
  constantI S_ 32 100000#32

def val_main_v87 : (⟨S1700000, .i32⟩ : BufTy).Contents (Elt F) :=
  broadcastInDim S1700000 ![] bcast_S_S1700000 (val_main_c_16 (F := F))

def val_main_v88 (x1 : (⟨S2x1600000, .i32⟩ : BufTy).Contents (Elt F)) : (⟨S1700000, .i32⟩ : BufTy).Contents (Elt F) :=
  addi (val_main_v3 (F := F) x1) (val_main_v87 (F := F))

def val_main_v89 (x1 : (⟨S2x1600000, .i32⟩ : BufTy).Contents (Elt F)) : (⟨S1700000, .i32⟩ : BufTy).Contents (Elt F) :=
  select (val_main_v86 (F := F) x1) (val_main_v88 (F := F) x1) (val_main_v3 (F := F) x1)

def val_main_v90 (x1 : (⟨S2x1600000, .i32⟩ : BufTy).Contents (Elt F)) : (⟨S1700000x1, .i32⟩ : BufTy).Contents (Elt F) :=
  broadcastInDim S1700000x1 ![0] bcast_S1700000_S1700000x1_0 (val_main_v89 (F := F) x1)

def val_main_v91 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) : (⟨S1700000x100, .f32⟩ : BufTy).Contents (Elt F) :=
  Host.gather gather_S100000x100_S1700000x1_S1700000x100_1_0_n_n_0_1_1100 (val_main_v84 (F := F) x0 x1 x3 x4 x5 x6 x7 x8 x9) (val_main_v90 (F := F) x1)

def val_main_v92 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)

def val_main_v93 (x1 : (⟨S2x1600000, .i32⟩ : BufTy).Contents (Elt F)) : (⟨S1700000x100, .f32⟩ : BufTy).Contents (Elt F) :=
  broadcastInDim S1700000x100 ![0, 1] bcast_S1700000x1_S1700000x100_0_1 (val_main_v92 (F := F) x1)

def val_main_v94 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) : (⟨S1700000x100, .f32⟩ : BufTy).Contents (Elt F) :=
  mulf (val_main_v91 (F := F) x0 x1 x3 x4 x5 x6 x7 x8 x9) (val_main_v93 (F := F) x1)

def val_main_cst_17 : (⟨S_, .f32⟩ : BufTy).Contents (Elt F) :=
  constant S_ .f32 0x00000000#32

def val_main_v95 : (⟨S100000x100, .f32⟩ : BufTy).Contents (Elt F) :=
  broadcastInDim S100000x100 ![] bcast_S_S100000x100 (val_main_cst_17 (F := F))

def val_main_v96 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

def val_main_v97 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) : (⟨S100000x100, .f32⟩ : BufTy).Contents (Elt F) :=
  Host.scatterAdd scatter_S100000x100_S1700000x1_S1700000x100_1_0_0_1 (val_main_v95 (F := F)) (val_main_v96 (F := F) x1) (val_main_v94 (F := F) x0 x1 x3 x4 x5 x6 x7 x8 x9)

def val_main_v98 (x10 : (⟨S100, .f32⟩ : BufTy).Contents (Elt F)) : (⟨S1x100, .f32⟩ : BufTy).Contents (Elt F) :=
  broadcastInDim S1x100 ![1] bcast_S100_S1x100_1 (x10)

def val_main_v99 (x10 : (⟨S100, .f32⟩ : BufTy).Contents (Elt F)) : (⟨S100000x100, .f32⟩ : BufTy).Contents (Elt F) :=
  broadcastInDim S100000x100 ![0, 1] bcast_S1x100_S100000x100_0_1 (val_main_v98 (F := F) x10)

def val_main_v100 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) : (⟨S100000x100, .f32⟩ : BufTy).Contents (Elt F) :=
  addf (val_main_v97 (F := F) x0 x1 x3 x4 x5 x6 x7 x8 x9) (val_main_v99 (F := F) x10)

def val_main_call4_cst : (⟨S_, .f32⟩ : BufTy).Contents (Elt F) :=
  constant S_ .f32 0x00000000#32

def val_main_call4_v0 : (⟨S100000x100, .f32⟩ : BufTy).Contents (Elt F) :=
  broadcastInDim S100000x100 ![] bcast_S_S100000x100 (val_main_call4_cst (F := F))

def val_main_v101 (x0 : (⟨S100000x128, .f32⟩ : BufTy).Contents (Elt F)) (x1 : (⟨S2x1600000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) : (⟨S100000x100, .f32⟩ : BufTy).Contents (Elt F) :=
  maximumf (val_main_v100 (F := F) x0 x1 x3 x4 x5 x6 x7 x8 x9 x10) (val_main_call4_v0 (F := F))

def val_main_cst_18 : (⟨S_, .f32⟩ : BufTy).Contents (Elt F) :=
  constant S_ .f32 0x00000000#32

def val_main_v102 : (⟨S64x100, .f32⟩ : BufTy).Contents (Elt F) :=
  broadcastInDim S64x100 ![] bcast_S_S64x100 (val_main_cst_18 (F := F))

def val_main_v103 (x2 : (⟨S100000, .i32⟩ : BufTy).Contents (Elt F)) : (⟨S100000x1, .i32⟩ : BufTy).Contents (Elt F) :=
  broadcastInDim S100000x1 ![0] bcast_S100000_S100000x1_0 (x2)

def val_main_v104 (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) : (⟨S64x100, .f32⟩ : BufTy).Contents (Elt F) :=
  Host.scatterAdd scatter_S64x100_S100000x1_S100000x100_1_0_0_1 (val_main_v102 (F := F)) (val_main_v103 (F := F) x2) (val_main_v101 (F := F) x0 x1 x3 x4 x5 x6 x7 x8 x9 x10)

def val_main_cst_19 : (⟨S_, .f32⟩ : BufTy).Contents (Elt F) :=
  constant S_ .f32 0x3F800000#32

def val_main_v105 : (⟨S100000, .f32⟩ : BufTy).Contents (Elt F) :=
  broadcastInDim S100000 ![] bcast_S_S100000 (val_main_cst_19 (F := F))

def val_main_cst_20 : (⟨S_, .f32⟩ : BufTy).Contents (Elt F) :=
  constant S_ .f32 0x00000000#32

def val_main_v106 : (⟨S64, .f32⟩ : BufTy).Contents (Elt F) :=
  broadcastInDim S64 ![] bcast_S_S64 (val_main_cst_20 (F := F))

def val_main_v107 (x2 : (⟨S100000, .i32⟩ : BufTy).Contents (Elt F)) : (⟨S100000x1, .i32⟩ : BufTy).Contents (Elt F) :=
  broadcastInDim S100000x1 ![0] bcast_S100000_S100000x1_0 (x2)

def val_main_v108 (x2 : (⟨S100000, .i32⟩ : BufTy).Contents (Elt F)) : (⟨S64, .f32⟩ : BufTy).Contents (Elt F) :=
  Host.scatterAdd scatter_S64_S100000x1_S100000_n_0_0_1 (val_main_v106 (F := F)) (val_main_v107 (F := F) x2) (val_main_v105 (F := F))

def val_main_cst_21 : (⟨S_, .f32⟩ : BufTy).Contents (Elt F) :=
  constant S_ .f32 0x3F800000#32

def val_main_v109 : (⟨S64, .f32⟩ : BufTy).Contents (Elt F) :=
  broadcastInDim S64 ![] bcast_S_S64 (val_main_cst_21 (F := F))

def val_main_v110 (x2 : (⟨S100000, .i32⟩ : BufTy).Contents (Elt F)) : (⟨S64, .f32⟩ : BufTy).Contents (Elt F) :=
  maximumf (val_main_v108 (F := F) x2) (val_main_v109 (F := F))

def val_main_v111 (x2 : (⟨S100000, .i32⟩ : BufTy).Contents (Elt F)) : (⟨S64x1, .f32⟩ : BufTy).Contents (Elt F) :=
  broadcastInDim S64x1 ![0] bcast_S64_S64x1_0 (val_main_v110 (F := F) x2)

def val_main_v112 (x2 : (⟨S100000, .i32⟩ : BufTy).Contents (Elt F)) : (⟨S64x100, .f32⟩ : BufTy).Contents (Elt F) :=
  broadcastInDim S64x100 ![0, 1] bcast_S64x1_S64x100_0_1 (val_main_v111 (F := F) x2)

def val_main_v113 (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) : (⟨S64x100, .f32⟩ : BufTy).Contents (Elt F) :=
  Host.divf (val_main_v104 (F := F) x0 x1 x2 x3 x4 x5 x6 x7 x8 x9 x10) (val_main_v112 (F := F) x2)

def val_main_v114 (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) (x11 : (⟨S100x50, .f32⟩ : BufTy).Contents (Elt F)) : (⟨S64x50, .f32⟩ : BufTy).Contents (Elt F) :=
  Host.dotGeneral dot_S64x100_S100x50_S64x50_1_0_0_1_n_n none (val_main_v113 (F := F) x0 x1 x2 x3 x4 x5 x6 x7 x8 x9 x10) (x11)

theorem lhs_main_v114_0 (i : S64x50.Idx) (q : dot_S64x100_S100x50_S64x50_1_0_0_1_n_n.contr.Idx) :
    (dot_S64x100_S100x50_S64x50_1_0_0_1_n_n.lhsIdx i q 0).val = (i 0).val := by
  unfold DotDims.lhsIdx
  rw [dif_neg (show ¬(0 : Fin S64x100.rank) ∈ dot_S64x100_S100x50_S64x50_1_0_0_1_n_n.lhsBatch by decide), dif_pos (show (0 : Fin S64x100.rank) ∈ dot_S64x100_S100x50_S64x50_1_0_0_1_n_n.lhsNonContracting by decide)]
  rfl

theorem lhs_main_v114_1 (i : S64x50.Idx) (q : dot_S64x100_S100x50_S64x50_1_0_0_1_n_n.contr.Idx) :
    (dot_S64x100_S100x50_S64x50_1_0_0_1_n_n.lhsIdx i q 1).val = (q ⟨0, by decide⟩).val :=
  dot_S64x100_S100x50_S64x50_1_0_0_1_n_n.lhsIdx_val_of_single rfl i q

theorem rhs_main_v114_0 (i : S64x50.Idx) (q : dot_S64x100_S100x50_S64x50_1_0_0_1_n_n.contr.Idx) :
    (dot_S64x100_S100x50_S64x50_1_0_0_1_n_n.rhsIdx i q 0).val = (q ⟨0, by decide⟩).val :=
  dot_S64x100_S100x50_S64x50_1_0_0_1_n_n.rhsIdx_val_of_single rfl i q

theorem rhs_main_v114_1 (i : S64x50.Idx) (q : dot_S64x100_S100x50_S64x50_1_0_0_1_n_n.contr.Idx) :
    (dot_S64x100_S100x50_S64x50_1_0_0_1_n_n.rhsIdx i q 1).val = (i 1).val := by
  unfold DotDims.rhsIdx
  rw [dif_neg (show ¬(1 : Fin S100x50.rank) ∈ dot_S64x100_S100x50_S64x50_1_0_0_1_n_n.rhsBatch by decide), dif_pos (show (1 : Fin S100x50.rank) ∈ dot_S64x100_S100x50_S64x50_1_0_0_1_n_n.rhsNonContracting by decide)]
  rfl

def val_main_v115 (x12 : (⟨S50, .f32⟩ : BufTy).Contents (Elt F)) : (⟨S1x50, .f32⟩ : BufTy).Contents (Elt F) :=
  broadcastInDim S1x50 ![1] bcast_S50_S1x50_1 (x12)

def val_main_v116 (x12 : (⟨S50, .f32⟩ : BufTy).Contents (Elt F)) : (⟨S64x50, .f32⟩ : BufTy).Contents (Elt F) :=
  broadcastInDim S64x50 ![0, 1] bcast_S1x50_S64x50_0_1 (val_main_v115 (F := F) x12)

def val_main_v117 (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) (x11 : (⟨S100x50, .f32⟩ : BufTy).Contents (Elt F)) (x12 : (⟨S50, .f32⟩ : BufTy).Contents (Elt F)) : (⟨S64x50, .f32⟩ : BufTy).Contents (Elt F) :=
  addf (val_main_v114 (F := F) x0 x1 x2 x3 x4 x5 x6 x7 x8 x9 x10 x11) (val_main_v116 (F := F) x12)

def val_main_v118 (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) (x11 : (⟨S100x50, .f32⟩ : BufTy).Contents (Elt F)) (x12 : (⟨S50, .f32⟩ : BufTy).Contents (Elt F)) (x13 : (⟨S50x2, .f32⟩ : BufTy).Contents (Elt F)) : (⟨S64x2, .f32⟩ : BufTy).Contents (Elt F) :=
  Host.dotGeneral dot_S64x50_S50x2_S64x2_1_0_0_1_n_n none (val_main_v117 (F := F) x0 x1 x2 x3 x4 x5 x6 x7 x8 x9 x10 x11 x12) (x13)

theorem lhs_main_v118_0 (i : S64x2.Idx) (q : dot_S64x50_S50x2_S64x2_1_0_0_1_n_n.contr.Idx) :
    (dot_S64x50_S50x2_S64x2_1_0_0_1_n_n.lhsIdx i q 0).val = (i 0).val := by
  unfold DotDims.lhsIdx
  rw [dif_neg (show ¬(0 : Fin S64x50.rank) ∈ dot_S64x50_S50x2_S64x2_1_0_0_1_n_n.lhsBatch by decide), dif_pos (show (0 : Fin S64x50.rank) ∈ dot_S64x50_S50x2_S64x2_1_0_0_1_n_n.lhsNonContracting by decide)]
  rfl

theorem lhs_main_v118_1 (i : S64x2.Idx) (q : dot_S64x50_S50x2_S64x2_1_0_0_1_n_n.contr.Idx) :
    (dot_S64x50_S50x2_S64x2_1_0_0_1_n_n.lhsIdx i q 1).val = (q ⟨0, by decide⟩).val :=
  dot_S64x50_S50x2_S64x2_1_0_0_1_n_n.lhsIdx_val_of_single rfl i q

theorem rhs_main_v118_0 (i : S64x2.Idx) (q : dot_S64x50_S50x2_S64x2_1_0_0_1_n_n.contr.Idx) :
    (dot_S64x50_S50x2_S64x2_1_0_0_1_n_n.rhsIdx i q 0).val = (q ⟨0, by decide⟩).val :=
  dot_S64x50_S50x2_S64x2_1_0_0_1_n_n.rhsIdx_val_of_single rfl i q

theorem rhs_main_v118_1 (i : S64x2.Idx) (q : dot_S64x50_S50x2_S64x2_1_0_0_1_n_n.contr.Idx) :
    (dot_S64x50_S50x2_S64x2_1_0_0_1_n_n.rhsIdx i q 1).val = (i 1).val := by
  unfold DotDims.rhsIdx
  rw [dif_neg (show ¬(1 : Fin S50x2.rank) ∈ dot_S64x50_S50x2_S64x2_1_0_0_1_n_n.rhsBatch by decide), dif_pos (show (1 : Fin S50x2.rank) ∈ dot_S64x50_S50x2_S64x2_1_0_0_1_n_n.rhsNonContracting by decide)]
  rfl

def val_main_v119 (x14 : (⟨S2, .f32⟩ : BufTy).Contents (Elt F)) : (⟨S1x2, .f32⟩ : BufTy).Contents (Elt F) :=
  broadcastInDim S1x2 ![1] bcast_S2_S1x2_1 (x14)

def val_main_v120 (x14 : (⟨S2, .f32⟩ : BufTy).Contents (Elt F)) : (⟨S64x2, .f32⟩ : BufTy).Contents (Elt F) :=
  broadcastInDim S64x2 ![0, 1] bcast_S1x2_S64x2_0_1 (val_main_v119 (F := F) x14)

def val_main_v121 (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x50, .f32⟩ : BufTy).Contents (Elt F)) (x4 : (⟨S50, .f32⟩ : BufTy).Contents (Elt F)) (x5 : (⟨S50x50, .f32⟩ : BufTy).Contents (Elt F)) (x6 : (⟨S50, .f32⟩ : BufTy).Contents (Elt F)) (x7 : (⟨S50x50, .f32⟩ : BufTy).Contents (Elt F)) (x8 : (⟨S50, .f32⟩ : BufTy).Contents (Elt F)) (x9 : (⟨S50x100, .f32⟩ : BufTy).Contents (Elt F)) (x10 : (⟨S100, .f32⟩ : BufTy).Contents (Elt F)) (x11 : (⟨S100x50, .f32⟩ : BufTy).Contents (Elt F)) (x12 : (⟨S50, .f32⟩ : BufTy).Contents (Elt F)) (x13 : (⟨S50x2, .f32⟩ : BufTy).Contents (Elt F)) (x14 : (⟨S2, .f32⟩ : BufTy).Contents (Elt F)) : (⟨S64x2, .f32⟩ : BufTy).Contents (Elt F) :=
  addf (val_main_v118 (F := F) x0 x1 x2 x3 x4 x5 x6 x7 x8 x9 x10 x11 x12 x13) (val_main_v120 (F := F) x14)

theorem val_main_v121_eq (m : (ℓ : Loc nD τ sig) → Buf (Elt F) ℓ) (c : Dev nD) :
    Cert.ReferenceIdeal.Value.res_main_v121 m c = val_main_v121 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.Value.res_main_v121; rfl

end Cert.ReferenceIdeal.Read

end
-- ==== Proof.Ref.Layers.lean ====
import proofs.«403456_j6588479832097_3_alg».proof.Proof.RefRead
import proofs.«403456_j6588479832097_3_alg».proof.Proof.Spec
import proofs.«403456_j6588479832097_3_alg».proof.Proof.LibScatterGatherRows
import proofs.«403456_j6588479832097_3_alg».proof.Proof.KI.ValCommon
import Idealize.ShloMosaic.Lib.ValueIdx
import Idealize.ShloMosaic.Lib.Pipeline.Value
import Idealize.ShloMosaic.PureOps.Ideal.Laws
import Idealize.ShloMosaic.Lib.StableHlo.Predicate
import Mathlib.Data.EReal.Basic
import Mathlib.Algebra.BigOperators.Group.Finset.Basic

noncomputable section

namespace Cert.ReferenceIdeal.RefVal

open Idealize.ShloMosaic Idealize.ShloMosaic.StableHlo Idealize.ShloMosaic.ValueIdx Cert.Spec Cert.LibScatterGatherRows
open Cert.KernelIdeal.Fr (coe_sum coe_mm coe_biasRelu)

/-- A word that reads signed as a row is not negative, so it is its own wrap and names that row. -/
theorem rowOf_of_toInt (s : BitVec 32) (v : Fin NN) (h : s.toInt = (v.val : ℤ)) : rowOf s = v := by
  have hv : v.val < 100000 := v.isLt
  have hw : wrapW s = s := by unfold wrapW; rw [if_neg (by omega)]
  apply Fin.ext
  show min (wrapW s).toInt.toNat 99999 = v.val
  rw [hw, h, Int.toNat_natCast]
  omega

section Conv

variable (b0 : (⟨0, ![]⟩ : Shape).BroadcastsInDim ⟨1, ![1700000]⟩ ![])
  (bc : (⟨1, ![1700000]⟩ : Shape).BroadcastsInDim ⟨2, ![1700000, 1]⟩ ![0])
  (dT : GatherDims ⟨1, ![100000]⟩ ⟨2, ![1700000, 1]⟩ ⟨1, ![1700000]⟩)

def wrapV (s : IVec ⟨1, ![1700000]⟩ 32) : IVec ⟨1, ![1700000]⟩ 32 :=
  select (cmpi .slt s (broadcastInDim ⟨1, ![1700000]⟩ ![] b0 (constantI ⟨0, ![]⟩ 32 0#32)))
    (addi s (broadcastInDim ⟨1, ![1700000]⟩ ![] b0 (constantI ⟨0, ![]⟩ 32 100000#32))) s

theorem wrapCol_apply (s : IVec ⟨1, ![1700000]⟩ 32) (e : Fin 1700000) (c : Fin 1) :
    broadcastInDim ⟨2, ![1700000, 1]⟩ ![0] bc (wrapV b0 s) (ix2 e c) = wrapW (s (ix1 e)) := by
  rw [bcast_col]
  exact select_slt_zero _ _

theorem arr2_apply {A B : ℕ} (f : Fin A → Fin B → ℝ) (a : Fin A) (b : Fin B) : arr2 f (ix2 a b) = ((f a b : ℝ) : EReal) := rfl
theorem arr1_apply {A : ℕ} (f : Fin A → ℝ) (a : Fin A) : arr1 f (ix1 a) = ((f a : ℝ) : EReal) := rfl

theorem take_apply (hcoll : dT.collapsedSliceDims = [0]) (hob : dT.operandBatchingDims = [])
    (hsim : dT.startIndexMap = [0]) (hivd : dT.indexVectorDim = 1)
    (d' : Fin 100000 → ℝ) (s : IVec ⟨1, ![1700000]⟩ 32) (e : Fin 1700000) :
    (Host.gather dT (arr1 d') (broadcastInDim ⟨2, ![1700000, 1]⟩ ![0] bc (wrapV b0 s)) : FVec Ideal ⟨1, ![1700000]⟩ .f32) (ix1 e)
      = ((d' (rowOf (s (ix1 e))) : ℝ) : EReal) := by
  have h1 : (ix1 e : (⟨1, ![1700000]⟩ : Shape).Idx) = Shape.Idx.ofFin e := funext fun a => match a with | ⟨0, _⟩ => rfl
  have h2 : (Predicate.ixP e : (⟨2, ![1700000, 1]⟩ : Shape).Idx) = ix2 e 0 :=
    funext fun a => match a with | ⟨0, _⟩ => rfl | ⟨1, _⟩ => rfl
  rw [h1]
  refine (Predicate.gather_take dT hcoll hob hsim hivd _ _ e (by decide)).trans ?_
  show ((d' _ : ℝ) : EReal) = _
  congr 2
  apply Fin.ext
  show min _ (100000 - 1) = min _ 99999
  rw [h2, wrapCol_apply, ← h1]

/-- A pair's weight: the table read at the two wrapped, clamped words, a product of reals. -/
theorem norm_apply (hcoll : dT.collapsedSliceDims = [0]) (hob : dT.operandBatchingDims = [])
    (hsim : dT.startIndexMap = [0]) (hivd : dT.indexVectorDim = 1)
    (d' : Fin 100000 → ℝ) (dinv : FVec Ideal ⟨1, ![100000]⟩ .f32) (hd : dinv = arr1 d')
    (src dst : IVec ⟨1, ![1700000]⟩ 32) (e : Fin 1700000) :
    mulf (Host.gather dT dinv (broadcastInDim ⟨2, ![1700000, 1]⟩ ![0] bc (wrapV b0 src)))
        (Host.gather dT dinv (broadcastInDim ⟨2, ![1700000, 1]⟩ ![0] bc (wrapV b0 dst))) (ix1 e)
      = ((d' (rowOf (src (ix1 e))) * d' (rowOf (dst (ix1 e))) : ℝ) : EReal) := by
  rw [hd, ValueIdx.mulf_apply, take_apply b0 bc dT hcoll hob hsim hivd, take_apply b0 bc dT hcoll hob hsim hivd, EReal.coe_mul]

variable {D : ℕ}
  (dS : ScatterDims ⟨2, ![100000, D]⟩ ⟨2, ![1700000, 1]⟩ ⟨2, ![1700000, D]⟩)
  (dG : GatherDims ⟨2, ![100000, D]⟩ ⟨2, ![1700000, 1]⟩ ⟨2, ![1700000, D]⟩)
  (bz : (⟨0, ![]⟩ : Shape).BroadcastsInDim ⟨2, ![100000, D]⟩ ![])
  (bw : (⟨2, ![1700000, 1]⟩ : Shape).BroadcastsInDim ⟨2, ![1700000, D]⟩ ![0, 1])

def convV (hw : FVec Ideal ⟨2, ![100000, D]⟩ .f32) (nrm : FVec Ideal ⟨1, ![1700000]⟩ .f32)
    (src dst : IVec ⟨1, ![1700000]⟩ 32) : FVec Ideal ⟨2, ![100000, D]⟩ .f32 :=
  Host.scatterAdd (F := Ideal) dS
    (broadcastInDim ⟨2, ![100000, D]⟩ ![] bz (constant (F := Ideal) ⟨0, ![]⟩ .f32 0x00000000#32))
    (broadcastInDim ⟨2, ![1700000, 1]⟩ ![0] bc dst)
    (mulf (Host.gather dG hw (broadcastInDim ⟨2, ![1700000, 1]⟩ ![0] bc (wrapV b0 src)))
      (broadcastInDim ⟨2, ![1700000, D]⟩ ![0, 1] bw (broadcastInDim ⟨2, ![1700000, 1]⟩ ![0] bc nrm)))

theorem gatherRow_apply (hoff : dG.offsetDims = [1]) (hcoll : dG.collapsedSliceDims = [0]) (hob : dG.operandBatchingDims = [])
    (hsim : dG.startIndexMap = [0]) (hivdG : dG.indexVectorDim = 1)
    (g' : Fin 100000 → Fin D → ℝ) (s : IVec ⟨1, ![1700000]⟩ 32) (e : Fin 1700000) (k : Fin D) :
    (Host.gather dG (arr2 g') (broadcastInDim ⟨2, ![1700000, 1]⟩ ![0] bc (wrapV b0 s)) : FVec Ideal ⟨2, ![1700000, D]⟩ .f32) (ix2 e k)
      = ((g' (rowOf (s (ix1 e))) k : ℝ) : EReal) := by
  refine (gather_rows dG hoff hcoll hob hsim hivdG _ _ e k (by decide)).trans ?_
  rw [arr2_apply]
  refine congrArg (fun r => ((g' r k : ℝ) : EReal)) (Fin.ext ?_)
  show min _ (100000 - 1) = min _ 99999
  rw [wrapCol_apply]

/-- A pair landing on row v has target word v, its own wrap, so its weight is the table at its source row times the table at v. -/
theorem layer_eq (h₁ : (⟨1, ![D]⟩ : Shape).BroadcastsInDim ⟨2, ![1, D]⟩ ![1])
    (h₂ : (⟨2, ![1, D]⟩ : Shape).BroadcastsInDim ⟨2, ![100000, D]⟩ ![0, 1])
    (huw : dS.updateWindowDims = [1]) (hiw : dS.insertedWindowDims = [0])
    (hsd : dS.scatterDimsToOperandDims = [0]) (hivdS : dS.indexVectorDim = 1)
    (hoff : dG.offsetDims = [1]) (hcoll : dG.collapsedSliceDims = [0]) (hob : dG.operandBatchingDims = [])
    (hsim : dG.startIndexMap = [0]) (hivdG : dG.indexVectorDim = 1)
    (d' : Fin 100000 → ℝ) (nrm : FVec Ideal ⟨1, ![1700000]⟩ .f32) (src dst : IVec ⟨1, ![1700000]⟩ 32)
    (hn : ∀ e : Fin 1700000, nrm (ix1 e) = ((d' (rowOf (src (ix1 e))) * d' (rowOf (dst (ix1 e))) : ℝ) : EReal))
    (hw : FVec Ideal ⟨2, ![100000, D]⟩ .f32) (g' : Fin 100000 → Fin D → ℝ) (hg : hw = arr2 g') (b' : Fin D → ℝ) :
    maximumf (addf (convV b0 bc dS dG bz bw hw nrm src dst)
        (broadcastInDim ⟨2, ![100000, D]⟩ ![0, 1] h₂ (broadcastInDim ⟨2, ![1, D]⟩ ![1] h₁ (arr1 b'))))
      (broadcastInDim ⟨2, ![100000, D]⟩ ![] bz (constant (F := Ideal) ⟨0, ![]⟩ .f32 0x00000000#32))
      = arr2 (biasRelu (agg (fun e => src (ix1 e)) (fun e => dst (ix1 e)) d' g') b') := by
  funext i
  obtain ⟨v, k, rfl⟩ : ∃ v k, i = ix2 v k := ⟨i 0, i 1, eq_ix2 i⟩
  have hz : broadcastInDim ⟨2, ![100000, D]⟩ ![] bz (constant (F := Ideal) ⟨0, ![]⟩ .f32 0x00000000#32) (ix2 v k) = 0 :=
    Ideal.ofBits_zero_f32
  have hf : (Finset.univ.filter fun e : Fin 1700000 =>
        (broadcastInDim ⟨2, ![1700000, 1]⟩ ![0] bc dst (ix2 e 0)).toInt = (v.val : ℤ))
      = Finset.univ.filter fun e : Fin EE => (dst (ix1 e)).toInt = (v.val : ℤ) :=
    Finset.filter_congr fun e _ => by rw [bcast_col]
  have hc : convV b0 bc dS dG bz bw hw nrm src dst (ix2 v k)
      = ((agg (fun e => src (ix1 e)) (fun e => dst (ix1 e)) d' g' v k : ℝ) : EReal) := by
    unfold convV
    rw [hg, scatterAdd_rows dS huw hiw hsd hivdS, hz, zero_add]
    unfold agg
    rw [coe_sum, hf]
    refine Finset.sum_congr rfl fun e he => ?_
    rw [ValueIdx.mulf_apply, gatherRow_apply b0 bc dG hoff hcoll hob hsim hivdG, bcast_wide, bcast_col, hn e,
      rowOf_of_toInt _ v (Finset.mem_filter.mp he).2, ← EReal.coe_mul]
  rw [ValueIdx.maximumf_apply, ValueIdx.addf_apply, bcast_bias, arr1_apply, hz, hc]
  exact coe_biasRelu _ b' v k

end Conv

section Stages

open Cert.ReferenceIdeal Cert.ReferenceIdeal.Gen Cert.ReferenceIdeal.Read

/-- Each of the four layers is the same nest on its own product, a real table because the layer before it is. -/
theorem ref_hid4 (x1 : (⟨S2x1600000, .i32⟩ : BufTy).Contents (Elt Ideal)) (x' : Fin 100000 → Fin 128 → ℝ)
    (W1' : Fin 128 → Fin 50 → ℝ) (b1' : Fin 50 → ℝ) (W2' : Fin 50 → Fin 50 → ℝ) (b2' : Fin 50 → ℝ)
    (W3' : Fin 50 → Fin 50 → ℝ) (b3' : Fin 50 → ℝ) (W4' : Fin 50 → Fin 100 → ℝ) (b4' : Fin 100 → ℝ)
    (d' : Fin 100000 → ℝ) (hd : Read.val_main_v14 (F := Ideal) x1 = Cert.Spec.arr1 d') :
    Read.val_main_v101 (F := Ideal) (arr2 x') x1 (arr2 W1') (arr1 b1') (arr2 W2') (arr1 b2') (arr2 W3') (arr1 b3')
        (arr2 W4') (arr1 b4')
      = arr2 (biasRelu (agg (fun e => Read.val_main_v3 (F := Ideal) x1 (ix1 e))
          (fun e => Read.val_main_v6 (F := Ideal) x1 (ix1 e)) d'
          (mm (hid3 (fun e => Read.val_main_v3 (F := Ideal) x1 (ix1 e))
            (fun e => Read.val_main_v6 (F := Ideal) x1 (ix1 e)) d' x' W1' b1' W2' b2' W3' b3') W4')) b4') := by
  have hn : ∀ e : Fin 1700000, val_main_v29 (F := Ideal) x1 (ix1 e)
      = ((d' (rowOf (val_main_v3 (F := Ideal) x1 (ix1 e))) * d' (rowOf (val_main_v6 (F := Ideal) x1 (ix1 e))) : ℝ) : EReal) :=
    norm_apply _ _ _ rfl rfl rfl rfl d' _ hd _ _
  have s1 : val_main_v47 (F := Ideal) (arr2 x') x1 (arr2 W1') (arr1 b1') = arr2 (biasRelu (agg _ _ d' (mm x' W1')) b1') :=
    layer_eq _ _ _ _ _ _ _ _ rfl rfl rfl rfl rfl rfl rfl rfl rfl d' _ _ _ hn _ _
      (funext fun i => by
        obtain ⟨a, b, rfl⟩ : ∃ a b, i = ix2 a b := ⟨i 0, i 1, eq_ix2 i⟩
        exact (dot_apply _ rfl rfl lhs_main_v30_0 lhs_main_v30_1 rhs_main_v30_0 rhs_main_v30_1 _ _ a b).trans
          (coe_mm _ _ a b)) b1'
  have s2 : val_main_v65 (F := Ideal) (arr2 x') x1 (arr2 W1') (arr1 b1') (arr2 W2') (arr1 b2')
      = arr2 (biasRelu (agg _ _ d' (mm _ W2')) b2') :=
    layer_eq _ _ _ _ _ _ _ _ rfl rfl rfl rfl rfl rfl rfl rfl rfl d' _ _ _ hn _ _
      (funext fun i => by
        obtain ⟨a, b, rfl⟩ : ∃ a b, i = ix2 a b := ⟨i 0, i 1, eq_ix2 i⟩
        unfold val_main_v48
        rw [s1]
        exact (dot_apply _ rfl rfl lhs_main_v48_0 lhs_main_v48_1 rhs_main_v48_0 rhs_main_v48_1 _ _ a b).trans
          (coe_mm _ _ a b)) b2'
  have s3 : val_main_v83 (F := Ideal) (arr2 x') x1 (arr2 W1') (arr1 b1') (arr2 W2') (arr1 b2') (arr2 W3') (arr1 b3')
      = arr2 (biasRelu (agg _ _ d' (mm _ W3')) b3') :=
    layer_eq _ _ _ _ _ _ _ _ rfl rfl rfl rfl rfl rfl rfl rfl rfl d' _ _ _ hn _ _
      (funext fun i => by
        obtain ⟨a, b, rfl⟩ : ∃ a b, i = ix2 a b := ⟨i 0, i 1, eq_ix2 i⟩
        unfold val_main_v66
        rw [s2]
        exact (dot_apply _ rfl rfl lhs_main_v66_0 lhs_main_v66_1 rhs_main_v66_0 rhs_main_v66_1 _ _ a b).trans
          (coe_mm _ _ a b)) b3'
  exact layer_eq _ _ _ _ _ _ _ _ rfl rfl rfl rfl rfl rfl rfl rfl rfl d' _ _ _ hn _ _
    (funext fun i => by
        obtain ⟨a, b, rfl⟩ : ∃ a b, i = ix2 a b := ⟨i 0, i 1, eq_ix2 i⟩
        unfold val_main_v84
        rw [s3]
        exact (dot_apply _ rfl rfl lhs_main_v84_0 lhs_main_v84_1 rhs_main_v84_0 rhs_main_v84_1 _ _ a b).trans
          (coe_mm _ _ a b)) b4'

end Stages

end Cert.ReferenceIdeal.RefVal
end
-- ==== Proof.Ref.Head.lean ====
import proofs.«403456_j6588479832097_3_alg».proof.Proof.RefRead
import proofs.«403456_j6588479832097_3_alg».proof.Proof.Spec
import proofs.«403456_j6588479832097_3_alg».proof.Proof.LibScatterGatherRows
import proofs.«403456_j6588479832097_3_alg».proof.Proof.KI.ValCommon
import Idealize.ShloMosaic.Lib.IdealHost
import Idealize.ShloMosaic.Lib.ValueIdx
import Idealize.ShloMosaic.Lib.Pipeline.Value
import Idealize.ShloMosaic.PureOps.Ideal.Laws
import Mathlib.Data.EReal.Basic
import Mathlib.Order.Lattice
import Mathlib.Algebra.BigOperators.Group.Finset.Basic

noncomputable section

namespace Cert.ReferenceIdeal.RefHead

open Cert.ReferenceIdeal Cert.ReferenceIdeal.Gen Idealize.ShloMosaic Idealize.ShloMosaic.TcCoe Idealize.SL.Sem Idealize.ShloMosaic.StableHlo
open Idealize.ShloMosaic.ValueIdx Cert.Spec Cert.LibScatterGatherRows
open Cert.KernelIdeal.Fr (coe_sum)

def sumsR (h4 : FVec Ideal S100000x100 .f32) (x2 : IVec S100000 32) : FVec Ideal S64x100 .f32 :=
  Host.scatterAdd scatter_S64x100_S100000x1_S100000x100_1_0_0_1 (Read.val_main_v102 (F := Ideal)) (Read.val_main_v103 (F := Ideal) x2) h4

def pooledR (h4 : FVec Ideal S100000x100 .f32) (x2 : IVec S100000 32) : FVec Ideal S64x100 .f32 :=
  Host.divf (sumsR h4 x2) (Read.val_main_v112 (F := Ideal) x2)

def fc1R (h4 : FVec Ideal S100000x100 .f32) (x2 : IVec S100000 32) (x11 : FVec Ideal S100x50 .f32) (x12 : FVec Ideal S50 .f32) :
    FVec Ideal S64x50 .f32 :=
  addf (Host.dotGeneral dot_S64x100_S100x50_S64x50_1_0_0_1_n_n none (pooledR h4 x2) x11) (Read.val_main_v116 (F := Ideal) x12)

def headR (h4 : FVec Ideal S100000x100 .f32) (x2 : IVec S100000 32) (x11 : FVec Ideal S100x50 .f32) (x12 : FVec Ideal S50 .f32)
    (x13 : FVec Ideal S50x2 .f32) (x14 : FVec Ideal S2 .f32) : FVec Ideal S64x2 .f32 :=
  addf (Host.dotGeneral dot_S64x50_S50x2_S64x2_1_0_0_1_n_n none (fc1R h4 x2 x11 x12) x13) (Read.val_main_v120 (F := Ideal) x14)

theorem val_main_v121_eq_headR (x0 : FVec Ideal S100000x128 .f32) (x1 : IVec S2x1600000 32) (x2 : IVec S100000 32)
    (x3 : FVec Ideal S128x50 .f32) (x4 : FVec Ideal S50 .f32) (x5 : FVec Ideal S50x50 .f32) (x6 : FVec Ideal S50 .f32)
    (x7 : FVec Ideal S50x50 .f32) (x8 : FVec Ideal S50 .f32) (x9 : FVec Ideal S50x100 .f32) (x10 : FVec Ideal S100 .f32)
    (x11 : FVec Ideal S100x50 .f32) (x12 : FVec Ideal S50 .f32) (x13 : FVec Ideal S50x2 .f32) (x14 : FVec Ideal S2 .f32) :
    Read.val_main_v121 (F := Ideal) x0 x1 x2 x3 x4 x5 x6 x7 x8 x9 x10 x11 x12 x13 x14
      = headR (Read.val_main_v101 (F := Ideal) x0 x1 x3 x4 x5 x6 x7 x8 x9 x10) x2 x11 x12 x13 x14 := rfl

theorem div_coe_coe (p m : ℝ) (hm : m ≠ 0) : Ideal.div (p : EReal) (m : EReal) = ((p / m : ℝ) : EReal) := by
  rw [Ideal.div_coe hm, ← EReal.coe_mul, mul_one_div]

section Stages

variable (x2 : IVec S100000 32)

theorem v102_at (i : S64x100.Idx) : Read.val_main_v102 (F := Ideal) i = (0 : EReal) :=
  (broadcastInDim_scalar_apply _ _ i).trans Ideal.ofBits_zero_f32

theorem v106_at (i : S64.Idx) : Read.val_main_v106 (F := Ideal) i = (0 : EReal) :=
  (broadcastInDim_scalar_apply _ _ i).trans Ideal.ofBits_zero_f32

theorem v105_at (i : S100000.Idx) : Read.val_main_v105 (F := Ideal) i = ((1 : ℝ) : EReal) :=
  (broadcastInDim_scalar_apply _ _ i).trans Ideal.ofBits_one_f32

theorem v109_at (i : S64.Idx) : Read.val_main_v109 (F := Ideal) i = ((1 : ℝ) : EReal) :=
  (broadcastInDim_scalar_apply _ _ i).trans Ideal.ofBits_one_f32

theorem v103_at (e : Fin 100000) : Read.val_main_v103 (F := Ideal) x2 (ix2 e 0) = x2 (ix1 e) :=
  bcast_col _ x2 e 0

theorem v107_at (e : Fin 100000) : Read.val_main_v107 (F := Ideal) x2 (ix2 e 0) = x2 (ix1 e) :=
  bcast_col _ x2 e 0

theorem sumsR_coe (h4' : Fin 100000 → Fin 100 → ℝ) (g : Fin 64) (j : Fin 100) :
    sumsR (arr2 h4') x2 (ix2 g j) = ((Spec.pool (fun i => x2 (ix1 i)) h4' g j : ℝ) : EReal) := by
  unfold sumsR
  rw [scatterAdd_rows _ rfl rfl rfl rfl, v102_at, zero_add]
  simp only [v103_at]
  unfold Spec.pool
  rw [coe_sum]
  rfl

theorem v108_at (g : Fin 64) : Read.val_main_v108 (F := Ideal) x2 (ix1 g) = ((Spec.cnt (fun i => x2 (ix1 i)) g : ℝ) : EReal) := by
  unfold Read.val_main_v108
  rw [scatterAdd_vec _ rfl rfl rfl rfl, v106_at, zero_add]
  simp only [v107_at, v105_at]
  unfold Spec.cnt
  rw [coe_sum]

theorem v110_at (g : Fin 64) :
    Read.val_main_v110 (F := Ideal) x2 (ix1 g) = ((max (Spec.cnt (fun i => x2 (ix1 i)) g) 1 : ℝ) : EReal) := by
  show max (Read.val_main_v108 (F := Ideal) x2 (ix1 g)) (Read.val_main_v109 (F := Ideal) (ix1 g)) = _
  rw [v108_at, v109_at]
  exact (EReal.coe_strictMono.monotone.map_max).symm

theorem v112_at (g : Fin 64) (j : Fin 100) :
    Read.val_main_v112 (F := Ideal) x2 (ix2 g j) = ((max (Spec.cnt (fun i => x2 (ix1 i)) g) 1 : ℝ) : EReal) :=
  (bcast_wide _ _ g j).trans ((bcast_col _ _ g 0).trans (v110_at x2 g))

/-- A clamped count is at least one, so the mean is a quotient of reals by a nonzero real. -/
theorem pooledR_coe (h4' : Fin 100000 → Fin 100 → ℝ) (g : Fin 64) (j : Fin 100) :
    pooledR (arr2 h4') x2 (ix2 g j) = ((meanPool (fun i => x2 (ix1 i)) h4' g j : ℝ) : EReal) := by
  show FloatOps.hostDivf (sumsR (arr2 h4') x2 (ix2 g j)) (Read.val_main_v112 (F := Ideal) x2 (ix2 g j)) = _
  rw [sumsR_coe, v112_at]
  exact div_coe_coe _ _ (max_cnt_ne_zero _ g)

end Stages

/-- An affine map on real tables: a finite sum of products of reals, plus a real. -/
theorem affine_coe {A K B : ℕ} (y : FVec Ideal ⟨2, ![A, K]⟩ .f32) (y' : Fin A → Fin K → ℝ)
    (hy : ∀ g k, y (ix2 g k) = ((y' g k : ℝ) : EReal)) (W' : Fin K → Fin B → ℝ) (b' : Fin B → ℝ) (g : Fin A) (j : Fin B) :
    (∑ k : Fin K, y (ix2 g k) * arr2 W' (ix2 k j)) + arr1 b' (ix1 j) = ((affine y' W' b' g j : ℝ) : EReal) := by
  simp only [hy]
  unfold affine mm
  rw [EReal.coe_add, coe_sum]
  simp only [EReal.coe_mul]
  rfl

theorem v116_at (x12 : FVec Ideal S50 .f32) (g : Fin 64) (j : Fin 50) :
    Read.val_main_v116 (F := Ideal) x12 (ix2 g j) = x12 (ix1 j) :=
  bcast_bias _ _ x12 g j

theorem v120_at (x14 : FVec Ideal S2 .f32) (g : Fin 64) (j : Fin 2) :
    Read.val_main_v120 (F := Ideal) x14 (ix2 g j) = x14 (ix1 j) :=
  bcast_bias _ _ x14 g j

theorem fc1R_coe (h4' : Fin 100000 → Fin 100 → ℝ) (x2 : IVec S100000 32) (Wf1' : Fin 100 → Fin 50 → ℝ) (bf1' : Fin 50 → ℝ)
    (g : Fin 64) (j : Fin 50) :
    fc1R (arr2 h4') x2 (arr2 Wf1') (arr1 bf1') (ix2 g j)
      = ((affine (meanPool (fun i => x2 (ix1 i)) h4') Wf1' bf1' g j : ℝ) : EReal) := by
  unfold fc1R
  rw [ValueIdx.addf_apply, dot_apply _ rfl rfl Read.lhs_main_v114_0 Read.lhs_main_v114_1 Read.rhs_main_v114_0 Read.rhs_main_v114_1, v116_at]
  exact affine_coe _ _ (pooledR_coe x2 h4') Wf1' bf1' g j

theorem headR_coe (h4' : Fin 100000 → Fin 100 → ℝ) (x2 : IVec S100000 32) (Wf1' : Fin 100 → Fin 50 → ℝ) (bf1' : Fin 50 → ℝ)
    (Wf2' : Fin 50 → Fin 2 → ℝ) (bf2' : Fin 2 → ℝ) :
    headR (arr2 h4') x2 (arr2 Wf1') (arr1 bf1') (arr2 Wf2') (arr1 bf2')
      = arr2 (headOf (fun i => x2 (ix1 i)) Wf1' bf1' Wf2' bf2' h4') := by
  funext i
  obtain ⟨g, j, rfl⟩ : ∃ g j, i = ix2 g j := ⟨i 0, i 1, eq_ix2 i⟩
  unfold headR
  rw [ValueIdx.addf_apply, dot_apply _ rfl rfl Read.lhs_main_v118_0 Read.lhs_main_v118_1 Read.rhs_main_v118_0 Read.rhs_main_v118_1, v120_at]
  exact affine_coe _ _ (fc1R_coe h4' x2 Wf1' bf1') Wf2' bf2' g j

end Cert.ReferenceIdeal.RefHead

end
-- ==== Proof.PreReal.lean ====
import proofs.«403456_j6588479832097_3_alg».proof.Pre_finite_inputs
import proofs.«403456_j6588479832097_3_alg».proof.Proof.Spec
import Idealize.ShloMosaic.Lib.ReduceAll
import Idealize.ShloMosaic.Lib.ValueIdx
import Idealize.ShloMosaic.PureOps.Ideal.Laws
import Mathlib.Data.EReal.Basic

noncomputable section

namespace Cert.PreReal

open Idealize.ShloMosaic Idealize.ShloMosaic.ValueIdx Cert.Pre_finite_inputs

instance : Subsingleton S_.Idx := ⟨fun a b => funext fun d => d.elim0⟩

theorem inf_word : Ideal.ofBits .f32 0x7F800000#32 = (⊤ : EReal) := by
  simp [Ideal.ofBits, Ideal.ieee]

theorem real_of_abs_lt (e : EReal)
    (h : FloatOps.cmpf (F := Ideal) (φ := .f32) .olt (FloatOps.absf (F := Ideal) (φ := .f32) e) (Ideal.ofBits .f32 0x7F800000#32) = 1#1) :
    ∃ r : ℝ, e = (r : EReal) := by
  rw [Ideal.cmpf_def, Ideal.absf_def, inf_word] at h
  induction e using EReal.rec with
  | bot => simp [Ideal.cmp] at h
  | coe r => exact ⟨r, rfl⟩
  | top => simp [Ideal.cmp] at h

theorem andi_at {s : Shape} (x y : IVec s 1) (i : s.Idx) : andi x y i = IntOp.andi (x i) (y i) := rfl

theorem arr2_of_all {A B : ℕ} (a : FVec Ideal ⟨2, ![A, B]⟩ .f32)
    (hb : S_.BroadcastsInDim ⟨2, ![A, B]⟩ (![] : Fin 0 → Fin 2)) {axes : List (Fin 2)}
    (hr : (⟨2, ![A, B]⟩ : Shape).ReducesTo axes S_) (hu : 0 < S_.numel) (init : IVec S_ 1)
    (h : Host.reduce IntOp.andi (cmpf .olt (Host.absf a) (broadcastInDim ⟨2, ![A, B]⟩ ![] hb (constant (F := Ideal) S_ .f32 0x7F800000#32))) init hr hu ix0 = 1#1) :
    ∃ f : Fin A → Fin B → ℝ, a = Cert.Spec.arr2 f := by
  have hall := Host.reduce_andi_all _ _ hr hu ix0 h
  have hpt : ∀ i, ∃ r : ℝ, a i = (r : EReal) := fun i => real_of_abs_lt (a i) (hall i)
  refine ⟨fun p q => Classical.choose (hpt (ix2 p q)), ?_⟩
  funext i
  rw [eq_ix2 i]
  exact Classical.choose_spec (hpt (ix2 (i 0) (i 1)))

theorem arr1_of_all {A : ℕ} (a : FVec Ideal ⟨1, ![A]⟩ .f32)
    (hb : S_.BroadcastsInDim ⟨1, ![A]⟩ (![] : Fin 0 → Fin 1)) {axes : List (Fin 1)}
    (hr : (⟨1, ![A]⟩ : Shape).ReducesTo axes S_) (hu : 0 < S_.numel) (init : IVec S_ 1)
    (h : Host.reduce IntOp.andi (cmpf .olt (Host.absf a) (broadcastInDim ⟨1, ![A]⟩ ![] hb (constant (F := Ideal) S_ .f32 0x7F800000#32))) init hr hu ix0 = 1#1) :
    ∃ f : Fin A → ℝ, a = Cert.Spec.arr1 f := by
  have hall := Host.reduce_andi_all _ _ hr hu ix0 h
  have hpt : ∀ i, ∃ r : ℝ, a i = (r : EReal) := fun i => real_of_abs_lt (a i) (hall i)
  refine ⟨fun p => Classical.choose (hpt (ix1 p)), ?_⟩
  funext i
  rw [eq_ix1 i]
  exact Classical.choose_spec (hpt (ix1 (i 0)))

variable [Facts]

theorem reals_of_pre
    (a0 : FVec Ideal S100000x128 .f32) (a1 : IVec S2x1600000 32) (a2 : IVec S100000 32)
    (a3 : FVec Ideal S128x50 .f32) (a4 : FVec Ideal S50 .f32) (a5 : FVec Ideal S50x50 .f32) (a6 : FVec Ideal S50 .f32)
    (a7 : FVec Ideal S50x50 .f32) (a8 : FVec Ideal S50 .f32) (a9 : FVec Ideal S50x100 .f32) (a10 : FVec Ideal S100 .f32)
    (a11 : FVec Ideal S100x50 .f32) (a12 : FVec Ideal S50 .f32) (a13 : FVec Ideal S50x2 .f32) (a14 : FVec Ideal S2 .f32)
    (h : fn (F := Ideal) a0 a1 a2 a3 a4 a5 a6 a7 a8 a9 a10 a11 a12 a13 a14 = fun _ => 1#1) :
    ∃ (x' : Fin 100000 → Fin 128 → ℝ) (W1' : Fin 128 → Fin 50 → ℝ) (b1' : Fin 50 → ℝ) (W2' : Fin 50 → Fin 50 → ℝ)
      (b2' : Fin 50 → ℝ) (W3' : Fin 50 → Fin 50 → ℝ) (b3' : Fin 50 → ℝ) (W4' : Fin 50 → Fin 100 → ℝ) (b4' : Fin 100 → ℝ)
      (Wf1' : Fin 100 → Fin 50 → ℝ) (bf1' : Fin 50 → ℝ) (Wf2' : Fin 50 → Fin 2 → ℝ) (bf2' : Fin 2 → ℝ),
      a0 = Cert.Spec.arr2 x' ∧ a3 = Cert.Spec.arr2 W1' ∧ a4 = Cert.Spec.arr1 b1' ∧ a5 = Cert.Spec.arr2 W2' ∧
      a6 = Cert.Spec.arr1 b2' ∧ a7 = Cert.Spec.arr2 W3' ∧ a8 = Cert.Spec.arr1 b3' ∧ a9 = Cert.Spec.arr2 W4' ∧
      a10 = Cert.Spec.arr1 b4' ∧ a11 = Cert.Spec.arr2 Wf1' ∧ a12 = Cert.Spec.arr1 bf1' ∧ a13 = Cert.Spec.arr2 Wf2' ∧
      a14 = Cert.Spec.arr1 bf2' := by
  have h0 := congrFun h ix0
  dsimp only [fn, fn_part1, fn_part2, fn_part3] at h0
  simp only [andi_at, IntOp.andi_eq_one] at h0
  obtain ⟨⟨⟨⟨⟨⟨⟨⟨⟨⟨⟨⟨e0, e3⟩, e4⟩, e5⟩, e6⟩, e7⟩, e8⟩, e9⟩, e10⟩, e11⟩, e12⟩, e13⟩, e14⟩ := h0
  obtain ⟨x', hx⟩ := arr2_of_all a0 _ _ _ _ e0
  obtain ⟨W1', hW1⟩ := arr2_of_all a3 _ _ _ _ e3
  obtain ⟨b1', hb1⟩ := arr1_of_all a4 _ _ _ _ e4
  obtain ⟨W2', hW2⟩ := arr2_of_all a5 _ _ _ _ e5
  obtain ⟨b2', hb2⟩ := arr1_of_all a6 _ _ _ _ e6
  obtain ⟨W3', hW3⟩ := arr2_of_all a7 _ _ _ _ e7
  obtain ⟨b3', hb3⟩ := arr1_of_all a8 _ _ _ _ e8
  obtain ⟨W4', hW4⟩ := arr2_of_all a9 _ _ _ _ e9
  obtain ⟨b4', hb4⟩ := arr1_of_all a10 _ _ _ _ e10
  obtain ⟨Wf1', hWf1⟩ := arr2_of_all a11 _ _ _ _ e11
  obtain ⟨bf1', hbf1⟩ := arr1_of_all a12 _ _ _ _ e12
  obtain ⟨Wf2', hWf2⟩ := arr2_of_all a13 _ _ _ _ e13
  obtain ⟨bf2', hbf2⟩ := arr1_of_all a14 _ _ _ _ e14
  exact ⟨x', W1', b1', W2', b2', W3', b3', W4', b4', Wf1', bf1', Wf2', bf2',
    hx, hW1, hb1, hW2, hb2, hW3, hb3, hW4, hb4, hWf1, hbf1, hWf2, hbf2⟩

end Cert.PreReal

end
-- ==== Proof.Cross.lean ====
import proofs.«403456_j6588479832097_3_alg».proof.Proof.Gen.KernelIdeal.Regions
import proofs.«403456_j6588479832097_3_alg».proof.Proof.RefRead
import Idealize.ShloMosaic.Lib.StableHlo.Run
import Idealize.ShloMosaic.Lib.Tactic

noncomputable section

namespace Cert.Cross

open Idealize.ShloMosaic Idealize.ShloMosaic.TcCoe Idealize.SL.Sem Idealize.ShloMosaic.StableHlo Idealize.ShloMosaic.Tactic

variable {F : FTy → Type} [FloatOps F]
variable (m : (ℓ : Loc Cert.KernelIdeal.nD Cert.KernelIdeal.τ Cert.KernelIdeal.sig) → Buf (Elt F) ℓ) (c : Dev Cert.KernelIdeal.nD)

theorem cross_v3 :
    Cert.KernelIdeal.Gen.V2 m c (Proc.devRef .tc Cert.KernelIdeal.main_v3)
      = Cert.ReferenceIdeal.Read.val_main_v3 (F := F) (m ((c.tc : Thread Cert.KernelIdeal.nD Cert.KernelIdeal.τ).loc Cert.KernelIdeal.main_arg1)) := by
  show StableHlo.after Cert.KernelIdeal.Gen.hostOps0_1 (StableHlo.after Cert.KernelIdeal.Gen.hostOps0 _) (Proc.devRef .tc Cert.KernelIdeal.main_v3) = _
  after_results
  unfold Cert.ReferenceIdeal.Read.val_main_v3 Cert.ReferenceIdeal.Read.val_main_v2 Cert.ReferenceIdeal.Read.val_main_v1 Cert.ReferenceIdeal.Read.val_main_v0
  rfl

theorem cross_v6 :
    Cert.KernelIdeal.Gen.V2 m c (Proc.devRef .tc Cert.KernelIdeal.main_v6)
      = Cert.ReferenceIdeal.Read.val_main_v6 (F := F) (m ((c.tc : Thread Cert.KernelIdeal.nD Cert.KernelIdeal.τ).loc Cert.KernelIdeal.main_arg1)) := by
  show StableHlo.after Cert.KernelIdeal.Gen.hostOps0_1 (StableHlo.after Cert.KernelIdeal.Gen.hostOps0 _) (Proc.devRef .tc Cert.KernelIdeal.main_v6) = _
  after_results
  unfold Cert.ReferenceIdeal.Read.val_main_v6 Cert.ReferenceIdeal.Read.val_main_v5 Cert.ReferenceIdeal.Read.val_main_v4 Cert.ReferenceIdeal.Read.val_main_v0
  rfl

set_option maxHeartbeats 400000 in

theorem cross_v14 :
    Cert.KernelIdeal.Gen.V2 m c (Proc.devRef .tc Cert.KernelIdeal.main_v14)
      = Cert.ReferenceIdeal.Read.val_main_v14 (F := F) (m ((c.tc : Thread Cert.KernelIdeal.nD Cert.KernelIdeal.τ).loc Cert.KernelIdeal.main_arg1)) := by
  show StableHlo.after Cert.KernelIdeal.Gen.hostOps0_1 (StableHlo.after Cert.KernelIdeal.Gen.hostOps0 _) (Proc.devRef .tc Cert.KernelIdeal.main_v14) = _
  after_results
  simp only [TRef.ofBuf, TRef.toBuf, cast_eq]
  unfold Cert.ReferenceIdeal.Read.val_main_v14 Cert.ReferenceIdeal.Read.val_main_v12 Cert.ReferenceIdeal.Read.val_main_v13
    Cert.ReferenceIdeal.Read.val_main_call0_v1 Cert.ReferenceIdeal.Read.val_main_call0_v0 Cert.ReferenceIdeal.Read.val_main_cst_2
    Cert.ReferenceIdeal.Read.val_main_v10 Cert.ReferenceIdeal.Read.val_main_v11 Cert.ReferenceIdeal.Read.val_main_cst_1
    Cert.ReferenceIdeal.Read.val_main_v8 Cert.ReferenceIdeal.Read.val_main_cst_0 Cert.ReferenceIdeal.Read.val_main_v9
    Cert.ReferenceIdeal.Read.val_main_v7 Cert.ReferenceIdeal.Read.val_main_cst
    Cert.ReferenceIdeal.Read.val_main_v6 Cert.ReferenceIdeal.Read.val_main_v5 Cert.ReferenceIdeal.Read.val_main_v4 Cert.ReferenceIdeal.Read.val_main_v0
  rfl

end Cert.Cross

end
-- ==== Proof.DinvRef.lean ====
import proofs.«403456_j6588479832097_3_alg».proof.Proof.RefRead
import proofs.«403456_j6588479832097_3_alg».proof.Proof.KI.AggRead
import proofs.«403456_j6588479832097_3_alg».proof.Proof.Gen.KernelIdeal

noncomputable section

namespace Cert.Cross

open Idealize.ShloMosaic Cert.ReferenceIdeal Cert.ReferenceIdeal.Read

theorem ref_dinv (x1 : (⟨S2x1600000, .i32⟩ : BufTy).Contents (Elt Ideal)) :
    val_main_v14 (F := Ideal) x1 = Cert.KernelIdeal.Val.dinvK (val_main_v6 (F := Ideal) x1) := by
  unfold Cert.KernelIdeal.Val.dinvK val_main_v14 val_main_call0_v1 val_main_call0_v0 val_main_cst_2 val_main_v13 val_main_v12 val_main_v11
    val_main_cst_1 val_main_v10 val_main_v9 val_main_v8 val_main_cst_0 val_main_v7 val_main_cst
  rfl

end Cert.Cross

end
-- ==== Proof.lean ====
import proofs.«403456_j6588479832097_3_alg».proof.Defs
import proofs.«403456_j6588479832097_3_alg».proof.Proof.Gen.Kernel
import proofs.«403456_j6588479832097_3_alg».proof.Proof.Gen.KernelIdeal
import proofs.«403456_j6588479832097_3_alg».proof.Proof.Gen.ReferenceIdeal
import proofs.«403456_j6588479832097_3_alg».proof.Proof.Gen.Pre_finite_inputs
import proofs.«403456_j6588479832097_3_alg».proof.Proof.K.Back
import proofs.«403456_j6588479832097_3_alg».proof.Proof.KI.Value
import proofs.«403456_j6588479832097_3_alg».proof.Proof.Ref.Layers
import proofs.«403456_j6588479832097_3_alg».proof.Proof.Ref.Head
import proofs.«403456_j6588479832097_3_alg».proof.Proof.PreReal
import proofs.«403456_j6588479832097_3_alg».proof.Proof.Cross
import proofs.«403456_j6588479832097_3_alg».proof.Proof.DinvRef
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Spec

theorem frame_k : Cert.frame_Kernel := fun m ρ _ =>
  (θ_run (Cert.Kernel.defs (F := Bits)) _ _).mono (fun r h c => Cert.Kernel.Fr.args_kept m c (h c)) (Cert.Kernel.Fr.run_all m ρ)

theorem frame_ki : Cert.frame_KernelIdeal := fun m ρ _ =>
  (θ_run (Cert.KernelIdeal.defs (F := Ideal)) _ _).mono (fun r h c => Cert.KernelIdeal.Fr.args_kept m c (h c)) (Cert.KernelIdeal.Fr.run_all m ρ)

theorem frame_ri : Cert.frame_ReferenceIdeal := fun m ρ _ =>
  (θ_run Cert.ReferenceIdeal.defs _ _).mono (fun _ h c => (h c).2) (Cert.ReferenceIdeal.Value.run (F := Ideal) m ρ)

open Cert.KernelIdeal.Val in
theorem algebraic : Cert.algebraic_KernelIdeal_ReferenceIdeal := by
  intro m ρ m' ρ' hpre hagree
  choose x' W1' b1' W2' b2' W3' b3' W4' b4' Wf1' bf1' Wf2' bf2' hre using fun c => Cert.PreReal.reals_of_pre _ _ _ _ _ _ _ _ _ _ _ _ _ _ _ (hpre c)
  choose d' hd' using fun c : Dev Cert.KernelIdeal.nD => dinvK_real (Cert.ReferenceIdeal.Read.val_main_v6 (F := Ideal) (m ((c.tc : Thread _ _).loc Cert.KernelIdeal.main_arg1)))
  have hrv : ∀ c : Dev Cert.KernelIdeal.nD, Cert.ReferenceIdeal.Read.val_main_v14 (F := Ideal) (m ((c.tc : Thread _ _).loc Cert.KernelIdeal.main_arg1)) = arr1 (d' c) := fun c =>
    (Cert.Cross.ref_dinv _).trans (hd' c)
  have hdv : ∀ c, Cert.KernelIdeal.Fr.W2 m c (Proc.devRef .tc Cert.KernelIdeal.main_v14) = arr1 (d' c) := fun c =>
    (Cert.Cross.cross_v14 m c).trans (hrv c)
  have H : ∀ c, Reals m c (x' c) (W1' c) (b1' c) (W2' c) (b2' c) (W3' c) (b3' c) (W4' c) (b4' c) (Wf1' c) (bf1' c) (Wf2' c) (bf2' c) (d' c) := fun c =>
    let ⟨h0, h3, h4, h5, h6, h7, h8, h9, h10, h11, h12, h13, h14⟩ := hre c
    ⟨h0, h3, h4, h5, h6, h7, h8, h9, h10, h11, h12, h13, h14, hdv c⟩
  refine ⟨fun c => arr2 (outR (srcW m c) (dstW m c) (d' c) (batW m c) (x' c) (W1' c) (b1' c) (W2' c) (b2' c) (W3' c) (b3' c) (W4' c) (b4' c) (Wf1' c) (bf1' c) (Wf2' c) (bf2' c)), ?_, ?_⟩
  · refine (θ_run (Cert.KernelIdeal.defs (F := Ideal)) _ _).mono (fun r h c => ⟨?_, Cert.KernelIdeal.Fr.args_kept m c (h c)⟩)
      (Cert.KernelIdeal.Fr.run_all m ρ)
    refine (h c _ (Cert.KernelIdeal.Fr.mem_uc Cert.KernelIdeal.main_v103 (by decide))).trans ((result (H c)).trans ?_)
    rw [outK_eq_outR]
  · refine (θ_run Cert.ReferenceIdeal.defs _ _).mono (fun r h c => ⟨(h c).1.trans ?_, (h c).2⟩) (Cert.ReferenceIdeal.Value.run (F := Ideal) m' ρ')
    obtain ⟨a0, a1, a2, a3, a4, a5, a6, a7, a8, a9, a10, a11, a12, a13, a14⟩ := hagree c
    have e3 : (fun e : Fin 1700000 => Cert.ReferenceIdeal.Read.val_main_v3 (F := Ideal) (m ((c.tc : Thread _ _).loc Cert.KernelIdeal.main_arg1)) (ix1 e)) = srcW m c :=
      funext fun e => (congrFun (Cert.Cross.cross_v3 m c) (ix1 e)).symm
    have e6 : (fun e : Fin 1700000 => Cert.ReferenceIdeal.Read.val_main_v6 (F := Ideal) (m ((c.tc : Thread _ _).loc Cert.KernelIdeal.main_arg1)) (ix1 e)) = dstW m c :=
      funext fun e => (congrFun (Cert.Cross.cross_v6 m c) (ix1 e)).symm
    have e14 : Cert.ReferenceIdeal.Read.val_main_v14 (F := Ideal) (m ((c.tc : Thread _ _).loc Cert.KernelIdeal.main_arg1)) = arr1 (d' c) := hrv c
    rw [Cert.ReferenceIdeal.Read.val_main_v121_eq, a0, a1, a2, a3, a4, a5, a6, a7, a8, a9, a10, a11, a12, a13, a14,
      (H c).a0, (H c).a3, (H c).a4, (H c).a5, (H c).a6, (H c).a7, (H c).a8, (H c).a9, (H c).a10, (H c).a11, (H c).a12, (H c).a13, (H c).a14,
      Cert.ReferenceIdeal.RefHead.val_main_v121_eq_headR,
      Cert.ReferenceIdeal.RefVal.ref_hid4 _ (x' c) (W1' c) (b1' c) (W2' c) (b2' c) (W3' c) (b3' c) (W4' c) (b4' c) (d' c) e14,
      Cert.ReferenceIdeal.RefHead.headR_coe, e3, e6]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
